-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_arg9 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1024x128 : Shape := ⟨2, ![1024, 128]⟩
abbrev S1024x1 : Shape := ⟨2, ![1024, 1]⟩
abbrev S1024x64 : Shape := ⟨2, ![1024, 64]⟩

abbrev nBuf : Space → Nat
  | .hbm => 27
  | .vmem => 37
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .f32⟩
  | .hbm, ⟨26, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S1024x1, .f32⟩
  | .local _ .vmem, ⟨27, _⟩ => ⟨S1024x1, .f32⟩
  | .local _ .vmem, ⟨28, _⟩ => ⟨S1024x64, .f32⟩
  | .local _ .vmem, ⟨29, _⟩ => ⟨S1024x1, .f32⟩
  | .local _ .vmem, ⟨30, _⟩ => ⟨S1024x1, .f32⟩
  | .local _ .vmem, ⟨31, _⟩ => ⟨S1024x64, .f32⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .f32⟩
  | .local _ .vmem, ⟨36, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc3_scratch3 : Ref sig .tc := ⟨.vmem, 29, rfl⟩
abbrev cc3_scratch4 : Ref sig .tc := ⟨.vmem, 30, rfl⟩
abbrev cc3_scratch5 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨4, ![4, 8, 2, 2], ![false, false, false, false]⟩

def k3_cond2 (i : grid3.Coords) : BitVec 1 :=
  let arg3 : BitVec 32 := BitVec.ofNat 32 (i 3).val
  let c1_i32 : BitVec 32 := 1#32
  let v81 : BitVec 1 := Scalar.cmpi .eq arg3 c1_i32
  let v82 : BitVec 32 := Scalar.extui v81
  let c0_i32_43 : BitVec 32 := 0#32
  let v83 : BitVec 1 := Scalar.cmpi .ne v82 c0_i32_43
  v83

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![v1.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![v1.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true, false]

abbrev stage3_1 : Fin 2 → Memref sig .tc .vmem S1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false, true]

abbrev stage3_2 : Fin 2 → Memref sig .tc .vmem S1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false, true]

abbrev stage3_3 : Fin 2 → Memref sig .tc .vmem S1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  slices_S1024x128_o0_64_S1024x64 : S1024x128.Slices ![0, 64] S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  concatenates_S1024x64_S1024x64_S1024x128_d1 : Shape.Concatenates [S1024x64, S1024x64] S1024x128 1
  packedbf16_S1024x128_S1024x128_0_0 : (Rect.unit (s := S1024x128) ![0, 0] S1024x128.size inb_S1024x128_S1024x128_0_0).PackedRows (EltTy.packing .bf16)
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x1024.size a
  hwx3_0 : ∀ i : grid3.Coords, EltTy.bits .bf16 = 32 ∨ (Rect.block (s := S8192x1024) S1024x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x1024.size a
  hwx3_1 : ∀ i : grid3.Coords, EltTy.bits .bf16 = 32 ∨ (Rect.block (s := S8192x1024) S1024x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x1024.size a
  hwx3_2 : ∀ i : grid3.Coords, EltTy.bits .bf16 = 32 ∨ (Rect.block (s := S8192x1024) S1024x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x1024.size a
  hwx3_3 : ∀ i : grid3.Coords, EltTy.bits .bf16 = 32 ∨ (Rect.block (s := S8192x1024) S1024x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x1024.size a
  hwx4_2 : ∀ i : grid4.Coords, EltTy.bits .f32 = 32 ∨ (Rect.block (s := S8192x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v14) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x16x64, .f32⟩
  | .hbm, ⟨15, _⟩ => ⟨S4x16x2048x64, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x16x64, .f32⟩
  | .hbm, ⟨21, _⟩ => ⟨S4x16x2048x64, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x16x64, .f32⟩
  | .hbm, ⟨27, _⟩ => ⟨S4x16x2048x64, .f32⟩
  | .hbm, ⟨28, _⟩ => ⟨S4x16x2048x2048, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KB.Lin0.lean ====
import proofs.«401353_j50216757624952_3_alg».proof.Proof.Gen.Kernel.Launch
import proofs.«401353_j50216757624952_3_alg».proof.Proof.Gen.Kernel.Skeleton
import proofs.«401353_j50216757624952_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0

abbrev r0_1 : Rect S1024 := Rect.unit (s := S1024) ![0] S1024.size inb_S1024_S1024_0

def out0_3 (x0 : Vec F S1024x1024 .f32) (x1 : Vec F S1024x1024 .bf16) (x2 : Vec F S1024 .f32) : Vec F S1024x1024 .bf16 :=
  View.canon [⟨r0_0, k0_pay1 (View.ld x0 r0_0) (View.ld x1 r0_0) (View.ld x2 r0_1)⟩]

theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_linear_kernel_bias i arg1 harg1 arg2 harg2 arg3 harg3 arg4 harg4) K := by
  simp only [cc0_linear_kernel_bias_eq_skeleton]; unfold cc0_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Lin1.lean ====
import proofs.«401353_j50216757624952_3_alg».proof.Proof.Gen.Kernel.Launch
import proofs.«401353_j50216757624952_3_alg».proof.Proof.Gen.Kernel.Skeleton
import proofs.«401353_j50216757624952_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x1024 := Rect.unit (s := S1024x1024) ![0, 0] S1024x1024.size inb_S1024x1024_S1024x1024_0_0

abbrev r1_1 : Rect S1024 := Rect.unit (s := S1024) ![0] S1024.size inb_S1024_S1024_0

def out1_3 (x0 : Vec F S1024x1024 .f32) (x1 : Vec F S1024x1024 .bf16) (x2 : Vec F S1024 .f32) : Vec F S1024x1024 .bf16 :=
  View.canon [⟨r1_0, k1_pay1 (View.ld x0 r1_0) (View.ld x1 r1_0) (View.ld x2 r1_1)⟩]

theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_linear_kernel_bias i arg1 harg1 arg2 harg2 arg3 harg3 arg4 harg4) K := by
  simp only [cc1_linear_kernel_bias_eq_skeleton]; unfold cc1_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Lin2.lean ====
import proofs.«401353_j50216757624952_3_alg».proof.Proof.Gen.Kernel.Launch
import proofs.«401353_j50216757624952_3_alg».proof.Proof.Gen.Kernel.Skeleton
import proofs.«401353_j50216757624952_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0

abbrev r2_1 : Rect S1024 := Rect.unit (s := S1024) ![0] S1024.size inb_S1024_S1024_0

def out2_3 (x0 : Vec F S1024x1024 .f32) (x1 : Vec F S1024x1024 .bf16) (x2 : Vec F S1024 .f32) : Vec F S1024x1024 .bf16 :=
  View.canon [⟨r2_0, k2_pay1 (View.ld x0 r2_0) (View.ld x1 r2_0) (View.ld x2 r2_1)⟩]

theorem cover2_3 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_linear_kernel_bias i arg1 harg1 arg2 harg2 arg3 harg3 arg4 harg4) K := by
  simp only [cc2_linear_kernel_bias_eq_skeleton]; unfold cc2_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.AttnSpec.lean ====
import proofs.«401353_j50216757624952_3_alg».proof.Proof.Gen.Kernel.Skeleton

noncomputable section

namespace Cert.Kernel.Hand

open Cert.Kernel Cert.Kernel.Gen
open Idealize.ShloMosaic

variable {F : FTy → Type} [FloatOps F]

structure St (F : FTy → Type) where
  m0 : Vec F S1024x1 .f32
  l0 : Vec F S1024x1 .f32
  a0 : Vec F S1024x64 .f32
  m1 : Vec F S1024x1 .f32
  l1 : Vec F S1024x1 .f32
  a1 : Vec F S1024x64 .f32

def stReset : St F := ⟨k3_pay4 (F := F), k3_pay5 (F := F), k3_pay6 (F := F), k3_pay7 (F := F), k3_pay8 (F := F), k3_pay9 (F := F)⟩

def stStep (q k v : Vec F S1024x128 .bf16) (s : St F) : St F where
  m0 := k3_pay24 (k3_pay18 q k s.m0)
  l0 := k3_pay22 (k3_pay21 q k s.m0 s.m0 s.l0)
  a0 := k3_pay23 (k3_pay15 v) (k3_pay19 q k s.m0 s.m0) (k3_pay20 q k s.m0) s.a0
  m1 := k3_pay2 (k3_pay26 (k3_pay13 q) (k3_pay14 k) s.m1)
  l1 := k3_pay29 (k3_pay13 q) (k3_pay14 k) s.m1 s.m1 s.l1
  a1 := k3_pay1 (k3_pay16 v) (k3_pay27 (k3_pay13 q) (k3_pay14 k) s.m1 s.m1) (k3_pay28 (k3_pay13 q) (k3_pay14 k) s.m1) s.a1

def stOut (s : St F) : Vec F S1024x128 .bf16 := k3_pay3 s.a0 s.l0 s.a1 s.l1

end Cert.Kernel.Hand

end
-- ==== Proof.KB.AttnBase.lean ====
import proofs.«401353_j50216757624952_3_alg».proof.Proof.Gen.Kernel.Launch
import proofs.«401353_j50216757624952_3_alg».proof.Proof.Gen.Kernel.Points
import proofs.«401353_j50216757624952_3_alg».proof.Proof.KB.AttnSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 3).val) 0#32)) 0#32) = 1#1

theorem hcond3_0 : ∀ t : Fin cfg3.N, cond3_0 (grid3.coords t) ↔ t.val % 2 = 0 :=
  (by decide +kernel : ∀ t : Fin grid3.N, cond3_0 (grid3.coords t) ↔ t.val % 2 = 0)

abbrev cond3_1 (i : grid3.Coords) : Prop := k3_cond2 i = 1#1

theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem liveAt3_3_B : ∀ t : Fin cfg3.N, ¬cond3_0 (grid3.coords t) → cond3_1 (grid3.coords t) → cfg3.idle 3 (grid3.coords t) = false := by decide +kernel

abbrev VO3_3 : View sig .tc .vmem S1024x128 .bf16 := (Memref.whole cc3_stg3_0 : Memref sig .tc .vmem S1024x128 .bf16).view

abbrev ms3_0 (t : Fin cfg3.N) : Memref sig .tc .vmem S1024x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .bf16 := win3_3.stage (cfg3.slots t 3)
abbrev hs3_3 (t : Fin cfg3.N) : (ms3_3 t).IsWhole := hstage3_3 ((cfg3.slots t 3).cast nbuf3_3)

abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x64 .f32 := Memref.whole cc3_scratch2
abbrev scM3_3 : Memref sig .tc .vmem S1024x1 .f32 := Memref.whole cc3_scratch3
abbrev scM3_4 : Memref sig .tc .vmem S1024x1 .f32 := Memref.whole cc3_scratch4
abbrev scM3_5 : Memref sig .tc .vmem S1024x64 .f32 := Memref.whole cc3_scratch5

abbrev VS3_0 : View sig .tc .vmem S1024x1 .f32 := scM3_0.view
abbrev VS3_1 : View sig .tc .vmem S1024x1 .f32 := scM3_1.view
abbrev VS3_2 : View sig .tc .vmem S1024x64 .f32 := scM3_2.view
abbrev VS3_3 : View sig .tc .vmem S1024x1 .f32 := scM3_3.view
abbrev VS3_4 : View sig .tc .vmem S1024x1 .f32 := scM3_4.view
abbrev VS3_5 : View sig .tc .vmem S1024x64 .f32 := scM3_5.view

abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ rest3 (F := F) c) ∗ (∃ r, prngReg c r)) := by
  unfold Pipeline.ΦA; rw [scopedRest3_split]; simp only [scM3_0, scM3_1, scM3_2, scM3_3, scM3_4, scM3_5, owns_whole]; try rfl

/-- The attention body's ten memref arguments, each whole. -/
structure Mems where
  a4 : Memref sig .tc .vmem S1024x128 .bf16
  h4 : a4.IsWhole
  a5 : Memref sig .tc .vmem S1024x128 .bf16
  h5 : a5.IsWhole
  a6 : Memref sig .tc .vmem S1024x128 .bf16
  h6 : a6.IsWhole
  a7 : Memref sig .tc .vmem S1024x128 .bf16
  h7 : a7.IsWhole
  a8 : Memref sig .tc .vmem S1024x1 .f32
  h8 : a8.IsWhole
  a9 : Memref sig .tc .vmem S1024x1 .f32
  h9 : a9.IsWhole
  a10 : Memref sig .tc .vmem S1024x64 .f32
  h10 : a10.IsWhole
  a11 : Memref sig .tc .vmem S1024x1 .f32
  h11 : a11.IsWhole
  a12 : Memref sig .tc .vmem S1024x1 .f32
  h12 : a12.IsWhole
  a13 : Memref sig .tc .vmem S1024x64 .f32
  h13 : a13.IsWhole

end Cert.Kernel.Hand

end
-- ==== Proof.KB.AttnRunA.lean ====
import proofs.«401353_j50216757624952_3_alg».proof.Proof.KB.AttnBase
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (M : Mems) (hc0 : cond3_0 i) (hc1 : ¬cond3_1 i)
    (x0 : Vec F S1024x128 .bf16) (x1 : Vec F S1024x128 .bf16) (x2 : Vec F S1024x128 .bf16) :
    Σ' (L3 : List (View.Piece (Elt F) S1024x128 .bf16)) (LS0 : List (View.Piece (Elt F) S1024x1 .f32)) (LS1 : List (View.Piece (Elt F) S1024x1 .f32)) (LS2 : List (View.Piece (Elt F) S1024x64 .f32)) (LS3 : List (View.Piece (Elt F) S1024x1 .f32)) (LS4 : List (View.Piece (Elt F) S1024x1 .f32)), { LS5 : List (View.Piece (Elt F) S1024x64 .f32) //
      ∀ (xi3 : Vec F S1024x128 .bf16) (E : Set ℕ) (K : PUnit → sProp 𝕄),
        iprop(owns (c : Thread nD τ) M.a4 fullShare x0 ∗ owns (c : Thread nD τ) M.a5 fullShare x1 ∗ owns (c : Thread nD τ) M.a6 fullShare x2 ∗ owns (c : Thread nD τ) M.a7 fullShare xi3 ∗ (∃ d, owns (c : Thread nD τ) M.a8 fullShare d) ∗ (∃ d, owns (c : Thread nD τ) M.a9 fullShare d) ∗ (∃ d, owns (c : Thread nD τ) M.a10 fullShare d) ∗ (∃ d, owns (c : Thread nD τ) M.a11 fullShare d) ∗ (∃ d, owns (c : Thread nD τ) M.a12 fullShare d) ∗ (∃ d, owns (c : Thread nD τ) M.a13 fullShare d)
            ∗ (iprop(owns (c : Thread nD τ) M.a4 fullShare x0 ∗ owns (c : Thread nD τ) M.a5 fullShare x1 ∗ owns (c : Thread nD τ) M.a6 fullShare x2 ∗ owns (c : Thread nD τ) M.a7 fullShare xi3 ∗ (∃ f, M.a8.view.loc (c : Thread nD τ) ↦[M.a8.view.set]{fullShare} M.a8.view.writes (Elt F) f LS0) ∗ (∃ f, M.a9.view.loc (c : Thread nD τ) ↦[M.a9.view.set]{fullShare} M.a9.view.writes (Elt F) f LS1) ∗ (∃ f, M.a10.view.loc (c : Thread nD τ) ↦[M.a10.view.set]{fullShare} M.a10.view.writes (Elt F) f LS2) ∗ (∃ f, M.a11.view.loc (c : Thread nD τ) ↦[M.a11.view.set]{fullShare} M.a11.view.writes (Elt F) f LS3) ∗ (∃ f, M.a12.view.loc (c : Thread nD τ) ↦[M.a12.view.set]{fullShare} M.a12.view.writes (Elt F) f LS4) ∗ (∃ f, M.a13.view.loc (c : Thread nD τ) ↦[M.a13.view.set]{fullShare} M.a13.view.writes (Elt F) f LS5)) -∗ K ⟨⟩))
          ⊢ wp frame (wpE (defs₀ (F := F)) Variants.none c none) E (cc3_attn_kernel i M.a4 M.h4 M.a5 M.h5 M.a6 M.h6 M.a7 M.h7 M.a8 M.h8 M.a9 M.h9 M.a10 M.h10 M.a11 M.h11 M.a12 M.h12 M.a13 M.h13) K } := by
  refine ⟨[], ?_, ?_, ?_, ?_, ?_, ?_, fun xi3 E K => ?run⟩
  case run =>
    simp only [cc3_attn_kernel_eq_skeleton]; unfold cc3_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := M.h4.eq_unread hf0; obtain rfl := M.h5.eq_unread hf1; obtain rfl := M.h6.eq_unread hf2; obtain rfl := M.h7.eq_unread hf3
    sl_exec (disch := first | exact hc0 | exact hc1)
    sl_step
    iapply Hk
    isplitl [H0]
    · iexists _; isplitr; · ipureintro; exact M.h4.read_unread _
      iexact H0
    isplitl [H1]
    · iexists _; isplitr; · ipureintro; exact M.h5.read_unread _
      iexact H1
    isplitl [H2]
    · iexists _; isplitr; · ipureintro; exact M.h6.read_unread _
      iexact H2
    isplitl [H3]
    · iexists _; isplitr; · ipureintro; exact M.h7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KB.AttnRunB.lean ====
import proofs.«401353_j50216757624952_3_alg».proof.Proof.KB.AttnBase
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (M : Mems) (hc0 : ¬cond3_0 i) (hc1 : cond3_1 i)
    (x0 : Vec F S1024x128 .bf16) (x1 : Vec F S1024x128 .bf16) (x2 : Vec F S1024x128 .bf16)
    (s : St F) :
    Σ' (L3 : List (View.Piece (Elt F) S1024x128 .bf16)) (LS0 : List (View.Piece (Elt F) S1024x1 .f32)) (LS1 : List (View.Piece (Elt F) S1024x1 .f32)) (LS2 : List (View.Piece (Elt F) S1024x64 .f32)) (LS3 : List (View.Piece (Elt F) S1024x1 .f32)) (LS4 : List (View.Piece (Elt F) S1024x1 .f32)), { LS5 : List (View.Piece (Elt F) S1024x64 .f32) //
      ∀ (E : Set ℕ) (K : PUnit → sProp 𝕄),
        iprop(owns (c : Thread nD τ) M.a4 fullShare x0 ∗ owns (c : Thread nD τ) M.a5 fullShare x1 ∗ owns (c : Thread nD τ) M.a6 fullShare x2 ∗ (∃ d, owns (c : Thread nD τ) M.a7 fullShare d) ∗ owns (c : Thread nD τ) M.a8 fullShare s.m0 ∗ owns (c : Thread nD τ) M.a9 fullShare s.l0 ∗ owns (c : Thread nD τ) M.a10 fullShare s.a0 ∗ owns (c : Thread nD τ) M.a11 fullShare s.m1 ∗ owns (c : Thread nD τ) M.a12 fullShare s.l1 ∗ owns (c : Thread nD τ) M.a13 fullShare s.a1
            ∗ (iprop(owns (c : Thread nD τ) M.a4 fullShare x0 ∗ owns (c : Thread nD τ) M.a5 fullShare x1 ∗ owns (c : Thread nD τ) M.a6 fullShare x2 ∗ (∃ f, M.a7.view.loc (c : Thread nD τ) ↦[M.a7.view.set]{fullShare} M.a7.view.writes (Elt F) f L3) ∗ (∃ f, M.a8.view.loc (c : Thread nD τ) ↦[M.a8.view.set]{fullShare} M.a8.view.writes (Elt F) f LS0) ∗ (∃ f, M.a9.view.loc (c : Thread nD τ) ↦[M.a9.view.set]{fullShare} M.a9.view.writes (Elt F) f LS1) ∗ (∃ f, M.a10.view.loc (c : Thread nD τ) ↦[M.a10.view.set]{fullShare} M.a10.view.writes (Elt F) f LS2) ∗ (∃ f, M.a11.view.loc (c : Thread nD τ) ↦[M.a11.view.set]{fullShare} M.a11.view.writes (Elt F) f LS3) ∗ (∃ f, M.a12.view.loc (c : Thread nD τ) ↦[M.a12.view.set]{fullShare} M.a12.view.writes (Elt F) f LS4) ∗ (∃ f, M.a13.view.loc (c : Thread nD τ) ↦[M.a13.view.set]{fullShare} M.a13.view.writes (Elt F) f LS5)) -∗ K ⟨⟩))
          ⊢ wp frame (wpE (defs₀ (F := F)) Variants.none c none) E (cc3_attn_kernel i M.a4 M.h4 M.a5 M.h5 M.a6 M.h6 M.a7 M.h7 M.a8 M.h8 M.a9 M.h9 M.a10 M.h10 M.a11 M.h11 M.a12 M.h12 M.a13 M.h13) K } := by
  refine ⟨?_, ?_, ?_, ?_, ?_, ?_, ?_, fun E K => ?run⟩
  case run =>
    simp only [cc3_attn_kernel_eq_skeleton]; unfold cc3_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := M.h4.eq_unread hf0; obtain rfl := M.h5.eq_unread hf1; obtain rfl := M.h6.eq_unread hf2
    obtain rfl := M.h8.eq_unread hfs0; obtain rfl := M.h9.eq_unread hfs1; obtain rfl := M.h10.eq_unread hfs2; obtain rfl := M.h11.eq_unread hfs3; obtain rfl := M.h12.eq_unread hfs4; obtain rfl := M.h13.eq_unread hfs5
    sl_exec (disch := first | exact hc0 | exact hc1)
    sl_step
    iapply Hk
    isplitl [H0]
    · iexists _; isplitr; · ipureintro; exact M.h4.read_unread _
      iexact H0
    isplitl [H1]
    · iexists _; isplitr; · ipureintro; exact M.h5.read_unread _
      iexact H1
    isplitl [H2]
    · iexists _; isplitr; · ipureintro; exact M.h6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KB.AttnOuts.lean ====
import proofs.«401353_j50216757624952_3_alg».proof.Proof.KB.AttnRunA
import proofs.«401353_j50216757624952_3_alg».proof.Proof.KB.AttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The body's memref arguments at grid point `t`. -/
abbrev memsAt (t : Fin cfg3.N) : Mems :=
  ⟨ms3_0 t, hs3_0 t, ms3_1 t, hs3_1 t, ms3_2 t, hs3_2 t, ms3_3 t, hs3_3 t, scM3_0, Memref.isWhole_whole _, scM3_1, Memref.isWhole_whole _,
    scM3_2, Memref.isWhole_whole _, scM3_3, Memref.isWhole_whole _, scM3_4, Memref.isWhole_whole _, scM3_5, Memref.isWhole_whole _⟩

section
variable (c : Dev nD) (i : grid3.Coords) (M : Mems) (x0 x1 x2 : Vec F S1024x128 .bf16)

section
variable (hc0 : cond3_0 i) (hc1 : ¬cond3_1 i)

theorem scoverA_0 (y : S1024x1.Idx) : ∃ pc ∈ (kernelRun3_A c i M hc0 hc1 x0 x1 x2).2.1, y ∈ pc.1.set :=
  View.cover_of_tiledL (kernelRun3_A c i M hc0 hc1 x0 x1 x2).2.1 S1024x1.size (by sl_kernel_rfl) y
theorem scoverA_1 (y : S1024x1.Idx) : ∃ pc ∈ (kernelRun3_A c i M hc0 hc1 x0 x1 x2).2.2.1, y ∈ pc.1.set :=
  View.cover_of_tiledL (kernelRun3_A c i M hc0 hc1 x0 x1 x2).2.2.1 S1024x1.size (by sl_kernel_rfl) y
theorem scoverA_2 (y : S1024x64.Idx) : ∃ pc ∈ (kernelRun3_A c i M hc0 hc1 x0 x1 x2).2.2.2.1, y ∈ pc.1.set :=
  View.cover_of_tiledL (kernelRun3_A c i M hc0 hc1 x0 x1 x2).2.2.2.1 S1024x64.size (by sl_kernel_rfl) y
theorem scoverA_3 (y : S1024x1.Idx) : ∃ pc ∈ (kernelRun3_A c i M hc0 hc1 x0 x1 x2).2.2.2.2.1, y ∈ pc.1.set :=
  View.cover_of_tiledL (kernelRun3_A c i M hc0 hc1 x0 x1 x2).2.2.2.2.1 S1024x1.size (by sl_kernel_rfl) y
theorem scoverA_4 (y : S1024x1.Idx) : ∃ pc ∈ (kernelRun3_A c i M hc0 hc1 x0 x1 x2).2.2.2.2.2.1, y ∈ pc.1.set :=
  View.cover_of_tiledL (kernelRun3_A c i M hc0 hc1 x0 x1 x2).2.2.2.2.2.1 S1024x1.size (by sl_kernel_rfl) y
theorem scoverA_5 (y : S1024x64.Idx) : ∃ pc ∈ (kernelRun3_A c i M hc0 hc1 x0 x1 x2).2.2.2.2.2.2.1, y ∈ pc.1.set :=
  View.cover_of_tiledL (kernelRun3_A c i M hc0 hc1 x0 x1 x2).2.2.2.2.2.2.1 S1024x64.size (by sl_kernel_rfl) y

/-- The six carried values after the case `ki = 0`: its stores read back. -/
def soutA : St F where
  m0 := VS3_0.read (Elt F) (VS3_0.writes (Elt F) VS3_0.junk (kernelRun3_A c i M hc0 hc1 x0 x1 x2).2.1)
  l0 := VS3_1.read (Elt F) (VS3_1.writes (Elt F) VS3_1.junk (kernelRun3_A c i M hc0 hc1 x0 x1 x2).2.2.1)
  a0 := VS3_2.read (Elt F) (VS3_2.writes (Elt F) VS3_2.junk (kernelRun3_A c i M hc0 hc1 x0 x1 x2).2.2.2.1)
  m1 := VS3_3.read (Elt F) (VS3_3.writes (Elt F) VS3_3.junk (kernelRun3_A c i M hc0 hc1 x0 x1 x2).2.2.2.2.1)
  l1 := VS3_4.read (Elt F) (VS3_4.writes (Elt F) VS3_4.junk (kernelRun3_A c i M hc0 hc1 x0 x1 x2).2.2.2.2.2.1)
  a1 := VS3_5.read (Elt F) (VS3_5.writes (Elt F) VS3_5.junk (kernelRun3_A c i M hc0 hc1 x0 x1 x2).2.2.2.2.2.2.1)

end

section
variable (hc0 : ¬cond3_0 i) (hc1 : cond3_1 i) (s : St F)

theorem coverB_3 (y : S1024x128.Idx) : ∃ pc ∈ (kernelRun3_B c i M hc0 hc1 x0 x1 x2 s).1, y ∈ pc.1.set :=
  View.cover_of_tiledL (kernelRun3_B c i M hc0 hc1 x0 x1 x2 s).1 S1024x128.size (by sl_kernel_rfl) y
theorem scoverB_0 (y : S1024x1.Idx) : ∃ pc ∈ (kernelRun3_B c i M hc0 hc1 x0 x1 x2 s).2.1, y ∈ pc.1.set :=
  View.cover_of_tiledL (kernelRun3_B c i M hc0 hc1 x0 x1 x2 s).2.1 S1024x1.size (by sl_kernel_rfl) y
theorem scoverB_1 (y : S1024x1.Idx) : ∃ pc ∈ (kernelRun3_B c i M hc0 hc1 x0 x1 x2 s).2.2.1, y ∈ pc.1.set :=
  View.cover_of_tiledL (kernelRun3_B c i M hc0 hc1 x0 x1 x2 s).2.2.1 S1024x1.size (by sl_kernel_rfl) y
theorem scoverB_2 (y : S1024x64.Idx) : ∃ pc ∈ (kernelRun3_B c i M hc0 hc1 x0 x1 x2 s).2.2.2.1, y ∈ pc.1.set :=
  View.cover_of_tiledL (kernelRun3_B c i M hc0 hc1 x0 x1 x2 s).2.2.2.1 S1024x64.size (by sl_kernel_rfl) y
theorem scoverB_3 (y : S1024x1.Idx) : ∃ pc ∈ (kernelRun3_B c i M hc0 hc1 x0 x1 x2 s).2.2.2.2.1, y ∈ pc.1.set :=
  View.cover_of_tiledL (kernelRun3_B c i M hc0 hc1 x0 x1 x2 s).2.2.2.2.1 S1024x1.size (by sl_kernel_rfl) y
theorem scoverB_4 (y : S1024x1.Idx) : ∃ pc ∈ (kernelRun3_B c i M hc0 hc1 x0 x1 x2 s).2.2.2.2.2.1, y ∈ pc.1.set :=
  View.cover_of_tiledL (kernelRun3_B c i M hc0 hc1 x0 x1 x2 s).2.2.2.2.2.1 S1024x1.size (by sl_kernel_rfl) y
theorem scoverB_5 (y : S1024x64.Idx) : ∃ pc ∈ (kernelRun3_B c i M hc0 hc1 x0 x1 x2 s).2.2.2.2.2.2.1, y ∈ pc.1.set :=
  View.cover_of_tiledL (kernelRun3_B c i M hc0 hc1 x0 x1 x2 s).2.2.2.2.2.2.1 S1024x64.size (by sl_kernel_rfl) y

/-- The output block after the case `ki = 1`, -/
def outB_3 : Vec F S1024x128 .bf16 := VO3_3.read (Elt F) (VO3_3.writes (Elt F) VO3_3.junk (kernelRun3_B c i M hc0 hc1 x0 x1 x2 s).1)

/-- and the six carried values, from those the point before left (`s`). -/
def soutB : St F where
  m0 := VS3_0.read (Elt F) (VS3_0.writes (Elt F) VS3_0.junk (kernelRun3_B c i M hc0 hc1 x0 x1 x2 s).2.1)
  l0 := VS3_1.read (Elt F) (VS3_1.writes (Elt F) VS3_1.junk (kernelRun3_B c i M hc0 hc1 x0 x1 x2 s).2.2.1)
  a0 := VS3_2.read (Elt F) (VS3_2.writes (Elt F) VS3_2.junk (kernelRun3_B c i M hc0 hc1 x0 x1 x2 s).2.2.2.1)
  m1 := VS3_3.read (Elt F) (VS3_3.writes (Elt F) VS3_3.junk (kernelRun3_B c i M hc0 hc1 x0 x1 x2 s).2.2.2.2.1)
  l1 := VS3_4.read (Elt F) (VS3_4.writes (Elt F) VS3_4.junk (kernelRun3_B c i M hc0 hc1 x0 x1 x2 s).2.2.2.2.2.1)
  a1 := VS3_5.read (Elt F) (VS3_5.writes (Elt F) VS3_5.junk (kernelRun3_B c i M hc0 hc1 x0 x1 x2 s).2.2.2.2.2.2.1)

end
end

theorem hcA0 (t : Fin cfg3.N) (h : t.val % 2 = 0) : cond3_0 (grid3.coords t) := (hcond3_0 t).mpr h
theorem hcA1 (t : Fin cfg3.N) (h : t.val % 2 = 0) : ¬cond3_1 (grid3.coords t) := fun hh => by
  have := (hcond3_1 t).mp hh; omega
theorem hcB0 (t : Fin cfg3.N) (h : ¬t.val % 2 = 0) : ¬cond3_0 (grid3.coords t) := fun hh => h ((hcond3_0 t).mp hh)
theorem hcB1 (t : Fin cfg3.N) (h : ¬t.val % 2 = 0) : cond3_1 (grid3.coords t) := (hcond3_1 t).mpr (by omega)

variable (c : Dev nD)

/-- The carried values after an even point `t`. -/
def ptA (t : Fin cfg3.N) (h : t.val % 2 = 0) : St F :=
  soutA c (grid3.coords t) (memsAt t) (iblk3 V c 0 t) (iblk3 V c 1 t) (iblk3 V c 2 t) (hcA0 t h) (hcA1 t h)

/-- The output block and the carried values after an odd point `t`, over the values `s` the point before left. -/
def ptB (t : Fin cfg3.N) (h : ¬t.val % 2 = 0) (s : St F) : Vec F S1024x128 .bf16 × St F :=
  (outB_3 c (grid3.coords t) (memsAt t) (iblk3 V c 0 t) (iblk3 V c 1 t) (iblk3 V c 2 t) (hcB0 t h) (hcB1 t h) s,
    soutB c (grid3.coords t) (memsAt t) (iblk3 V c 0 t) (iblk3 V c 1 t) (iblk3 V c 2 t) (hcB0 t h) (hcB1 t h) s)

/-- The output block and the carried values after the body at position `n`: the grid alternates the two cases
    (at an even point the first component is a placeholder nothing reads). -/
def outsAt3 : (n : ℕ) → n < cfg3.N → Vec F S1024x128 .bf16 × St F
  | 0, hn => (VO3_3.read (Elt F) VO3_3.junk, ptA V c ⟨0, hn⟩ (Nat.zero_mod _))
  | n + 1, hn =>
    if h0 : (n + 1) % 2 = 0 then (VO3_3.read (Elt F) VO3_3.junk, ptA V c ⟨n + 1, hn⟩ h0)
    else ptB V c ⟨n + 1, hn⟩ h0 (outsAt3 n (Nat.lt_of_succ_lt hn)).2

theorem outsAt3_A (t : Fin cfg3.N) (h0 : t.val % 2 = 0) :
    outsAt3 V c t.val t.isLt = (VO3_3.read (Elt F) VO3_3.junk, ptA V c t h0) := by
  obtain ⟨n, hn⟩ := t
  cases n with
  | zero => exact rfl
  | succ n => exact (dif_pos h0).trans rfl

theorem outsAt3_B (t : Fin cfg3.N) (h0 : ¬t.val % 2 = 0) :
    outsAt3 V c t.val t.isLt = ptB V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The carried values after point `n`. -/
def stAt3 : (n : ℕ) → n < cfg3.N → St F := fun n hn => (outsAt3 V c n hn).2

end Cert.Kernel.Hand

end
-- ==== Proof.KB.AttnFrame.lean ====
import proofs.«401353_j50216757624952_3_alg».proof.Proof.KB.AttnOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Stores that cover a buffer leave their read-back in it, whatever it held before. -/
theorem owns_of_cover {S : Shape} {e : EltTy} (c : Dev nD) (a : Memref sig .tc .vmem S e) (v : View sig .tc .vmem S e)
    (L : List (View.Piece (Elt F) S e)) (h : ∀ y, ∃ p ∈ L, y ∈ p.1.set) :
    iprop(∃ f, a.view.loc (c : Thread nD τ) ↦[a.view.set]{fullShare} a.view.writes (Elt F) f L)
      ⊢ (owns (c : Thread nD τ) a fullShare (v.read (Elt F) (v.writes (Elt F) v.junk L)) : sProp 𝕄) := by
  unfold owns
  iintro ⟨%f, H⟩
  iexists _; isplitr
  swap; · iexact H
  ipureintro; exact View.read_writes_of_cover _ _ _ _ _ h

/-- The six scratch memrefs owned at the six components of `s`. -/
abbrev ownsSt (c : Dev nD) (s : St F) : sProp 𝕄 :=
  iprop(owns (c : Thread nD τ) scM3_0 fullShare s.m0 ∗ owns (c : Thread nD τ) scM3_1 fullShare s.l0 ∗ owns (c : Thread nD τ) scM3_2 fullShare s.a0
    ∗ owns (c : Thread nD τ) scM3_3 fullShare s.m1 ∗ owns (c : Thread nD τ) scM3_4 fullShare s.l1 ∗ owns (c : Thread nD τ) scM3_5 fullShare s.a1)

/-- The region invariant before position `n`: before the first point the scratch holds anything, afterwards the carried values. -/
def PhiS3 (c : Dev nD) : (n : ℕ) → n ≤ cfg3.N → sProp 𝕄
  | 0, _ => Pipeline.ΦA spec3 c
  | n + 1, hn => iprop(iprop(ownsSt c (outsAt3 V c n hn).2 ∗ rest3 (F := F) c) ∗ (∃ r, prngReg c r))

theorem PhiS3_pos (c : Dev nD) (n : ℕ) (h : n ≤ cfg3.N) (hz : n ≠ 0) :
    PhiS3 V c n h = iprop(iprop(ownsSt c (outsAt3 V c (n - 1) (by omega)).2 ∗ rest3 (F := F) c) ∗ (∃ r, prngReg c r)) := by
  cases n with
  | zero => exact absurd rfl hz
  | succ n => rfl

/-- Forgetting the carried values weakens the invariant to the one before the first point. -/
theorem PhiS3_le (c : Dev nD) (n : ℕ) (h : n ≤ cfg3.N) : PhiS3 V c n h ⊢ Pipeline.ΦA spec3 c := by
  cases n with
  | zero => exact Idealize.SL.BI.Entails.refl _
  | succ n =>
    rw [PhiA3_eq]
    show iprop(iprop(ownsSt c (outsAt3 V c n h).2 ∗ rest3 (F := F) c) ∗ (∃ r, prngReg c r)) ⊢ _
    iintro ⟨⟨⟨HS0, HS1, HS2, HS3, HS4, HS5⟩, Hr⟩, Hg⟩
    isplitl [HS0 HS1 HS2 HS3 HS4 HS5 Hr]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexists _; iexact HS5
      iexact Hr
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: its parity says which case runs; the invariant lends that case the six scratch memrefs and
    takes them back at the point's carried values. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = iprop(iprop(ownsSt c (outsAt3 V c t.val t.isLt).2 ∗ rest3 (F := F) c) ∗ (∃ r, prngReg c r)) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [PhiS3_castSucc V c t]
  by_cases h0 : t.val % 2 = 0
  · rw [Dat.leavesExact_idle (dat3 V c) 3 t (idleAt3_3_A t (hcA0 t h0) (hcA1 t h0)) (noFlush3_3_A t (hcA0 t h0) (hcA1 t h0))]
    rw [outsAt3_A V c t h0]
    unfold ptA soutA; (try dsimp only)
    have hle := PhiS3_le V c t.val (Nat.le_of_lt t.isLt)
    rw [PhiA3_eq] at hle
    iintro ⟨HΦ, Ho, ⟨%d0, H0⟩, ⟨%d1, H1⟩, ⟨%d2, H2⟩, ⟨%d3, H3⟩⟩
    ihave HΦ := hle $$ HΦ
    icases HΦ with ⟨⟨⟨HS0, HS1, HS2, HS3, HS4, HS5⟩, Hr⟩, Hg⟩
    iapply ((kernelRun3_A c (grid3.coords t) (memsAt t) (hcA0 t h0) (hcA1 t h0) (iblk3 V c 0 t) (iblk3 V c 1 t) (iblk3 V c 2 t)).2.2.2.2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, HS0, HS1, HS2, HS3, HS4, HS5⟩
    isplitl [HS0 HS1 HS2 HS3 HS4 HS5 Hr Hg]
    · isplitl [HS0 HS1 HS2 HS3 HS4 HS5 Hr]
      · isplitl [HS0 HS1 HS2 HS3 HS4 HS5]
        · isplitl [HS0]; · iapply owns_of_cover c _ _ _ (scoverA_0 c _ _ _ _ _ _ _); iexact HS0
          isplitl [HS1]; · iapply owns_of_cover c _ _ _ (scoverA_1 c _ _ _ _ _ _ _); iexact HS1
          isplitl [HS2]; · iapply owns_of_cover c _ _ _ (scoverA_2 c _ _ _ _ _ _ _); iexact HS2
          isplitl [HS3]; · iapply owns_of_cover c _ _ _ (scoverA_3 c _ _ _ _ _ _ _); iexact HS3
          isplitl [HS4]; · iapply owns_of_cover c _ _ _ (scoverA_4 c _ _ _ _ _ _ _); iexact HS4
          iapply owns_of_cover c _ _ _ (scoverA_5 c _ _ _ _ _ _ _); iexact HS5
        iexact Hr
      iexact Hg
    isplitl [Ho]; · iexact Ho
    isplitl [H0]; · iexact H0
    isplitl [H1]; · iexact H1
    isplitl [H2]; · iexact H2
    iexists _; iexact H3
  · rw [PhiS3_pos V c _ _ fun e => h0 (by rw [e])]
    rw [show (dat3 V c).leavesExact 3 t = owns (c : Thread nD τ) (ms3_3 t) fullShare ((dat3 V c).after 3 t) from by
      unfold Dat.leavesExact; rw [liveAt3_3_B t (hcB0 t h0) (hcB1 t h0)], after3_3]
    rw [outsAt3_B V c t h0]
    unfold ptB outB_3 soutB; (try dsimp only)
    iintro ⟨⟨⟨⟨HS0, HS1, HS2, HS3, HS4, HS5⟩, Hr⟩, Hg⟩, Ho, ⟨%d0, H0⟩, ⟨%d1, H1⟩, ⟨%d2, H2⟩, ⟨%d3, H3⟩⟩
    iapply ((kernelRun3_B c (grid3.coords t) (memsAt t) (hcB0 t h0) (hcB1 t h0) (iblk3 V c 0 t) (iblk3 V c 1 t) (iblk3 V c 2 t)
      (outsAt3 V c (t.val - 1) (Nat.lt_of_le_of_lt (Nat.sub_le _ _) t.isLt)).2).2.2.2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, HS0, HS1, HS2, HS3, HS4, HS5⟩
    isplitl [HS0 HS1 HS2 HS3 HS4 HS5 Hr Hg]
    · isplitl [HS0 HS1 HS2 HS3 HS4 HS5 Hr]
      · isplitl [HS0 HS1 HS2 HS3 HS4 HS5]
        · isplitl [HS0]; · iapply owns_of_cover c _ _ _ (scoverB_0 c _ _ _ _ _ _ _ _); iexact HS0
          isplitl [HS1]; · iapply owns_of_cover c _ _ _ (scoverB_1 c _ _ _ _ _ _ _ _); iexact HS1
          isplitl [HS2]; · iapply owns_of_cover c _ _ _ (scoverB_2 c _ _ _ _ _ _ _ _); iexact HS2
          isplitl [HS3]; · iapply owns_of_cover c _ _ _ (scoverB_3 c _ _ _ _ _ _ _ _); iexact HS3
          isplitl [HS4]; · iapply owns_of_cover c _ _ _ (scoverB_4 c _ _ _ _ _ _ _ _); iexact HS4
          iapply owns_of_cover c _ _ _ (scoverB_5 c _ _ _ _ _ _ _ _); iexact HS5
        iexact Hr
      iexact Hg
    isplitl [Ho]; · iexact Ho
    isplitl [H0]; · iexact H0
    isplitl [H1]; · iexact H1
    isplitl [H2]; · iexact H2
    iapply owns_of_cover c _ _ _ (coverB_3 c _ _ _ _ _ _ _ _); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c :=
  PhiS3_le V c (Fin.last cfg3.N).val (Nat.le_of_lt_succ (Fin.last cfg3.N).isLt)

end Cert.Kernel.Hand

end
-- ==== Proof.KB.AttnPieces.lean ====
import proofs.«401353_j50216757624952_3_alg».proof.Proof.KB.AttnOuts
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz00 : (![0, 0] : Fin 2 → Nat) = fun _ => 0 := funext fun a => by fin_cases a <;> rfl

section
variable (c : Dev nD) (i : grid3.Coords) (M : Mems) (x0 x1 x2 : Vec F S1024x128 .bf16)

/-- The case `ki = 0` leaves one update of the reset state. -/
theorem soutA_eq (hc0 : cond3_0 i) (hc1 : ¬cond3_1 i) : soutA c i M x0 x1 x2 hc0 hc1 = stStep x0 x1 x2 (stReset (F := F)) := by
  unfold soutA stStep stReset
  dsimp only
  simp only [View.read_writes_eq_canon _ _ _ (scoverA_0 c i M x0 x1 x2 hc0 hc1),
    View.read_writes_eq_canon _ _ _ (scoverA_1 c i M x0 x1 x2 hc0 hc1),
    View.read_writes_eq_canon _ _ _ (scoverA_2 c i M x0 x1 x2 hc0 hc1),
    View.read_writes_eq_canon _ _ _ (scoverA_3 c i M x0 x1 x2 hc0 hc1),
    View.read_writes_eq_canon _ _ _ (scoverA_4 c i M x0 x1 x2 hc0 hc1),
    View.read_writes_eq_canon _ _ _ (scoverA_5 c i M x0 x1 x2 hc0 hc1)]
  unfold kernelRun3_A
  dsimp only
  sl_unfold_words
  simp only [View.canon_cons_unit_zero (S := S1024x1) hz00, View.canon_cons_unit_zero (S := S1024x64) hz00, View.readAt_eq_ld, M.h4.read_unread, M.h5.read_unread, M.h6.read_unread, M.h8.read_unread, M.h9.read_unread, M.h10.read_unread, M.h11.read_unread, M.h12.read_unread, M.h13.read_unread, View.ld_unit_zero (S := S1024x128) hz00, View.ld_unit_zero (S := S1024x1) hz00,
    View.ld_unit_zero (S := S1024x64) hz00, View.readCov_unit_zero (S := S1024x1) _ hz00, View.readCov_unit_zero (S := S1024x64) _ hz00]

/-- The case `ki = 1` leaves one update of the state before it, and that state's output block. -/
theorem runB_eq (hc0 : ¬cond3_0 i) (hc1 : cond3_1 i) (s : St F) :
    (outB_3 c i M x0 x1 x2 hc0 hc1 s, soutB c i M x0 x1 x2 hc0 hc1 s) = (stOut (stStep x0 x1 x2 s), stStep x0 x1 x2 s) := by
  unfold outB_3 soutB stOut stStep
  dsimp only
  simp only [View.read_writes_eq_canon _ _ _ (coverB_3 c i M x0 x1 x2 hc0 hc1 s),
    View.read_writes_eq_canon _ _ _ (scoverB_0 c i M x0 x1 x2 hc0 hc1 s),
    View.read_writes_eq_canon _ _ _ (scoverB_1 c i M x0 x1 x2 hc0 hc1 s),
    View.read_writes_eq_canon _ _ _ (scoverB_2 c i M x0 x1 x2 hc0 hc1 s),
    View.read_writes_eq_canon _ _ _ (scoverB_3 c i M x0 x1 x2 hc0 hc1 s),
    View.read_writes_eq_canon _ _ _ (scoverB_4 c i M x0 x1 x2 hc0 hc1 s),
    View.read_writes_eq_canon _ _ _ (scoverB_5 c i M x0 x1 x2 hc0 hc1 s)]
  unfold kernelRun3_B
  dsimp only
  sl_unfold_words
  simp only [View.canon_unit_zero (S := S1024x128) hz00, View.canon_unit_zero (S := S1024x1) hz00, View.canon_unit_zero (S := S1024x64) hz00, View.readAt_eq_ld, M.h4.read_unread, M.h5.read_unread, M.h6.read_unread, M.h8.read_unread, M.h9.read_unread, M.h10.read_unread, M.h11.read_unread, M.h12.read_unread, M.h13.read_unread, View.ld_unit_zero (S := S1024x128) hz00, View.ld_unit_zero (S := S1024x1) hz00,
    View.ld_unit_zero (S := S1024x64) hz00, View.readCov_unit_zero (S := S1024x1) _ hz00, View.readCov_unit_zero (S := S1024x64) _ hz00]

end

variable (c : Dev nD)

theorem stAt3_even (t : Fin cfg3.N) (h : t.val % 2 = 0) :
    stAt3 V c t.val t.isLt = stStep (iblk3 V c 0 t) (iblk3 V c 1 t) (iblk3 V c 2 t) stReset := by
  unfold stAt3
  rw [outsAt3_A V c t h]
  exact soutA_eq c _ _ _ _ _ _ _

theorem ptB_eq (t : Fin cfg3.N) (h : ¬t.val % 2 = 0) (s : St F) :
    ptB V c t h s = (stOut (stStep (iblk3 V c 0 t) (iblk3 V c 1 t) (iblk3 V c 2 t) s), stStep (iblk3 V c 0 t) (iblk3 V c 1 t) (iblk3 V c 2 t) s) :=
  runB_eq c _ _ _ _ _ _ _ s

theorem stAt3_odd (t : Fin cfg3.N) (h : t.val % 2 = 1) :
    stAt3 V c t.val t.isLt = stStep (iblk3 V c 0 t) (iblk3 V c 1 t) (iblk3 V c 2 t) (stAt3 V c (t.val - 1) (Nat.lt_of_le_of_lt (Nat.sub_le _ _) t.isLt)) := by
  unfold stAt3
  rw [outsAt3_B V c t (by omega)]
  exact congrArg Prod.snd (ptB_eq V c t _ _)

end Cert.Kernel.Hand

end
-- ==== Proof.KB.Attn.lean ====
import proofs.«401353_j50216757624952_3_alg».proof.Proof.KB.AttnFrame
import proofs.«401353_j50216757624952_3_alg».proof.Proof.KB.AttnPieces

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- At an odd point the body leaves the output block of the state it has just updated. -/
theorem after3_3_odd (c : Dev nD) (t : Fin cfg3.N) (h : t.val % 2 = 1) : (dat3 V c).after 3 t = stOut (stAt3 V c t.val t.isLt) := by
  have h0 : ¬t.val % 2 = 0 := by omega
  rw [after3_3, stAt3_odd V c t h, outsAt3_B V c t h0]
  exact congrArg Prod.fst (ptB_eq V c t h0 _)

end Cert.Kernel.Hand

end
-- ==== Proof.KB.Lin4.lean ====
import proofs.«401353_j50216757624952_3_alg».proof.Proof.Gen.Kernel.Launch
import proofs.«401353_j50216757624952_3_alg».proof.Proof.Gen.Kernel.Skeleton
import proofs.«401353_j50216757624952_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x1024 := Rect.unit (s := S1024x1024) ![0, 0] S1024x1024.size inb_S1024x1024_S1024x1024_0_0

def out4_2 (x0 : Vec F S1024x1024 .bf16) (x1 : Vec F S1024x1024 .bf16) : Vec F S1024x1024 .f32 :=
  View.canon [⟨r4_0, k4_pay1 (View.ld x0 r4_0) (View.ld x1 r4_0)⟩]

theorem cover4_2 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

set_option maxHeartbeats 1000000 in
theorem sound_kernel4 (c : Dev nD) (E : Set ℕ) (i : grid4.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4_linear_kernel_nobias i arg1 harg1 arg2 harg2 arg3 harg3) K := by
  simp only [cc4_linear_kernel_nobias_eq_skeleton]; unfold cc4_linear_kernel_nobias_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
import proofs.«401353_j50216757624952_3_alg».proof.Proof.KB.Lin0
import proofs.«401353_j50216757624952_3_alg».proof.Proof.KB.Lin1
import proofs.«401353_j50216757624952_3_alg».proof.Proof.KB.Lin2
import proofs.«401353_j50216757624952_3_alg».proof.Proof.KB.Attn
import proofs.«401353_j50216757624952_3_alg».proof.Proof.KB.Lin4
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev V3 : (c : Dev nD) → (b : Ref sig .tc) → Buf (Elt F) ((c : Thread nD τ).loc b) := fun c b => W3 m c b

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

abbrev V4 : (c : Dev nD) → (b : Ref sig .tc) → Buf (Elt F) ((c : Thread nD τ).loc b) := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb

abbrev V5 : (c : Dev nD) → (b : Ref sig .tc) → Buf (Elt F) ((c : Thread nD τ).loc b) := fun c b => W5 m c b

def W6 (c : Dev nD) : Valuation τ sig (Elt F) :=
  Pipeline.withArrays spec4 c (W5 m c) fun w => (dat4 (V5 m) c).arrAt w cfg4.N
theorem W6_arr (c : Dev nD) (w : Fin cfg4.W) :
    W6 m c (Proc.devRef .tc (Pipeline.arrRef spec4 w)) = (dat4 (V5 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb

abbrev V6 : (c : Dev nD) → (b : Ref sig .tc) → Buf (Elt F) ((c : Thread nD τ).loc b) := fun c b => W6 m c b

abbrev W7 : Dev nD → Valuation τ sig (Elt F) := fun c => StableHlo.after hostOps5 (W6 m c)

abbrev admH : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_freshH : (hostOps0 : List (HloOp τ sig (Elt F))).Forall fun op => op.fresh = ∅ := by
  simp only [List.Forall]; repeat' constructor
theorem hostOps5_freshH : (hostOps5 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A kernel region as a segment between two valuations of the buffers that differ only at the region's arrays. -/
def mkReg (p : Fin 5) (lf : Pipeline.LaunchFacts (nD := nD) (τ := τ) cfgs p) (Win Wout : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0)
    (hrec : ∀ c t, (pdats m p c).recorded t = Set.univ)
    (hA : ∀ c w, (pdats m p c).A w = Win c (Proc.devRef .tc (Pipeline.arrRef (cfgs p).spec w)))
    (hF : ∀ c w, Wout c (Proc.devRef .tc (Pipeline.arrRef (cfgs p).spec w)) = (pdats m p c).arrAt w (cfgs p).N)
    (hrest : ∀ c (b : Ref sig .tc), (∀ w, Pipeline.arrRef (cfgs p).spec w ≠ b) → Wout c (Proc.devRef .tc b) = Win c (Proc.devRef .tc b))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) admH (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admH (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (fun w => (hF c w).symm)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev reg0 := mkReg m 0 launch0 (W1 m) (W2 m) (body_obligation0 (V1 m)) (fun _ _ => rfl) (fun _ _ => rfl) (fun _ _ => rfl) (fun _ _ => rfl)
  (W2_arr m) (W2_of_ne m) (fun _ => .rfl) (fun _ => .rfl)
abbrev reg1 := mkReg m 1 launch1 (W2 m) (W3 m) (body_obligation1 (V2 m)) (fun _ _ => rfl) (fun _ _ => rfl) (fun _ _ => rfl) (fun _ _ => rfl)
  (W3_arr m) (W3_of_ne m) (fun _ => .rfl) (fun _ => .rfl)
abbrev reg2 := mkReg m 2 launch2 (W3 m) (W4 m) (body_obligation2 (V3 m)) (fun _ _ => rfl) (fun _ _ => rfl) (fun _ _ => rfl) (fun _ _ => rfl)
  (W4_arr m) (W4_of_ne m) (fun _ => .rfl) (fun _ => .rfl)
abbrev reg3 := mkReg m 3 launch3 (W4 m) (W5 m) (body_obligation3 (V4 m)) (fun _ _ => rfl) (fun _ _ => rfl) (fun _ _ => rfl) (fun _ _ => rfl)
  (W5_arr m) (W5_of_ne m) (hin3 (V4 m)) (hout3 (V4 m))
abbrev reg4 := mkReg m 4 launch4 (W5 m) (W6 m) (body_obligation4 (V5 m)) (fun _ _ => rfl) (fun _ _ => rfl) (fun _ _ => rfl) (fun _ _ => rfl)
  (W6_arr m) (W6_of_ne m) (fun _ => .rfl) (fun _ => .rfl)

abbrev segs : List (Pipeline.Seg (pcfgs (F := F)) admH (pdats m) () defs₀ 𝒱₀ L lv) :=
  [ .host (hseg hostOps0 hostOps0_sub hostOps0_freshH (W0 m)),
    .region (reg0 m), .region (reg1 m), .region (reg2 m), .region (reg3 m), .region (reg4 m),
    .host (hseg hostOps5 hostOps5_sub hostOps5_freshH (W6 m)) ]

theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.KB.Args.lean ====
import proofs.«401353_j50216757624952_3_alg».proof.Proof.KB.Run
import proofs.«401353_j50216757624952_3_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer that no host operation writes and that is no region's array reaches the end as launched. -/
theorem W7_kept (c : Dev nD) (b : Ref sig .tc) (h5 : b ∉ hostOps5_W) (h4 : ∀ w, Pipeline.arrRef spec4 w ≠ b) (h3 : ∀ w, Pipeline.arrRef spec3 w ≠ b)
    (h2 : ∀ w, Pipeline.arrRef spec2 w ≠ b) (h1 : ∀ w, Pipeline.arrRef spec1 w ≠ b) (h0 : ∀ w, Pipeline.arrRef spec0 w ≠ b) (hh : b ∉ hostOps0_W) :
    W7 m c (Proc.devRef .tc b) = m ((c : Thread nD τ).loc b) :=
  calc W7 m c (Proc.devRef .tc b)
    _ = W6 m c (Proc.devRef .tc b) := StableHlo.after_of_writes_sub hostOps5 _ hostOps5_writes h5
    _ = W5 m c (Proc.devRef .tc b) := W6_of_ne m c b h4
    _ = W4 m c (Proc.devRef .tc b) := W5_of_ne m c b h3
    _ = W3 m c (Proc.devRef .tc b) := W4_of_ne m c b h2
    _ = W2 m c (Proc.devRef .tc b) := W3_of_ne m c b h1
    _ = W1 m c (Proc.devRef .tc b) := W2_of_ne m c b h0
    _ = W0 m c (Proc.devRef .tc b) := StableHlo.after_of_writes_sub hostOps0 _ hostOps0_writes hh
    _ = m ((c : Thread nD τ).loc b) := rfl

theorem W7_main_arg0 (c : Dev nD) : W7 m c (Proc.devRef .tc main_arg0) = m ((c : Thread nD τ).loc main_arg0) :=
  W7_kept m c main_arg0 (by decide) (by decide) (by decide) (by decide) (by decide) (by decide) (by decide)

theorem W7_main_arg1 (c : Dev nD) : W7 m c (Proc.devRef .tc main_arg1) = m ((c : Thread nD τ).loc main_arg1) :=
  W7_kept m c main_arg1 (by decide) (by decide) (by decide) (by decide) (by decide) (by decide) (by decide)

theorem W7_main_arg2 (c : Dev nD) : W7 m c (Proc.devRef .tc main_arg2) = m ((c : Thread nD τ).loc main_arg2) :=
  W7_kept m c main_arg2 (by decide) (by decide) (by decide) (by decide) (by decide) (by decide) (by decide)

theorem W7_main_arg3 (c : Dev nD) : W7 m c (Proc.devRef .tc main_arg3) = m ((c : Thread nD τ).loc main_arg3) :=
  W7_kept m c main_arg3 (by decide) (by decide) (by decide) (by decide) (by decide) (by decide) (by decide)

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps5 _ hostOps5_writes (show main_arg4 ∉ hostOps5_W by decide)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 2).trans (((dat0 (V1 m) c).arrAt_in 2 rfl _).trans (A_eq0 (V1 m) c 2))
    _ = W0 m c (Proc.devRef .tc main_arg4) := StableHlo.after_of_writes_sub hostOps0 _ hostOps0_writes (show main_arg4 ∉ hostOps0_W by decide)
    _ = m ((c : Thread nD τ).loc main_arg4) := rfl

theorem W7_main_arg5 (c : Dev nD) : W7 m c (Proc.devRef .tc main_arg5) = m ((c : Thread nD τ).loc main_arg5) :=
  W7_kept m c main_arg5 (by decide) (by decide) (by decide) (by decide) (by decide) (by decide) (by decide)

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps5 _ hostOps5_writes (show main_arg6 ∉ hostOps5_W by decide)
    _ = W5 m c (Proc.devRef .tc main_arg6) := W6_of_ne m c main_arg6 (by decide)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl

theorem W7_main_arg7 (c : Dev nD) : W7 m c (Proc.devRef .tc main_arg7) = m ((c : Thread nD τ).loc main_arg7) :=
  W7_kept m c main_arg7 (by decide) (by decide) (by decide) (by decide) (by decide) (by decide) (by decide)

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps5 _ hostOps5_writes (show main_arg8 ∉ hostOps5_W by decide)
    _ = W5 m c (Proc.devRef .tc main_arg8) := W6_of_ne m c main_arg8 (by decide)
    _ = W4 m c (Proc.devRef .tc main_arg8) := W5_of_ne m c main_arg8 (by decide)
    _ = W3 m c (Proc.devRef .tc main_arg8) := (W4_arr m c 2).trans (((dat2 (V3 m) c).arrAt_in 2 rfl _).trans (A_eq2 (V3 m) c 2))
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl

theorem W7_main_arg9 (c : Dev nD) : W7 m c (Proc.devRef .tc main_arg9) = m ((c : Thread nD τ).loc main_arg9) :=
  W7_kept m c main_arg9 (by decide) (by decide) (by decide) (by decide) (by decide) (by decide) (by decide)

end Cert.Kernel.Hand

end
-- ==== Proof.KI.Lin0.lean ====
import proofs.«401353_j50216757624952_3_alg».proof.Proof.Gen.KernelIdeal.Launch
import proofs.«401353_j50216757624952_3_alg».proof.Proof.Gen.KernelIdeal.Skeleton
import proofs.«401353_j50216757624952_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0

abbrev r0_1 : Rect S1024 := Rect.unit (s := S1024) ![0] S1024.size inb_S1024_S1024_0

def out0_3 (x0 : Vec F S1024x1024 .f32) (x1 : Vec F S1024x1024 .bf16) (x2 : Vec F S1024 .f32) : Vec F S1024x1024 .bf16 :=
  View.canon [⟨r0_0, k0_pay1 (View.ld x0 r0_0) (View.ld x1 r0_0) (View.ld x2 r0_1)⟩]

theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_linear_kernel_bias i arg1 harg1 arg2 harg2 arg3 harg3 arg4 harg4) K := by
  simp only [cc0_linear_kernel_bias_eq_skeleton]; unfold cc0_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
import proofs.«401353_j50216757624952_3_alg».proof.Proof.Gen.KernelIdeal.Launch
import proofs.«401353_j50216757624952_3_alg».proof.Proof.Gen.KernelIdeal.Skeleton
import proofs.«401353_j50216757624952_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x1024 := Rect.unit (s := S1024x1024) ![0, 0] S1024x1024.size inb_S1024x1024_S1024x1024_0_0

abbrev r1_1 : Rect S1024 := Rect.unit (s := S1024) ![0] S1024.size inb_S1024_S1024_0

def out1_3 (x0 : Vec F S1024x1024 .f32) (x1 : Vec F S1024x1024 .bf16) (x2 : Vec F S1024 .f32) : Vec F S1024x1024 .bf16 :=
  View.canon [⟨r1_0, k1_pay1 (View.ld x0 r1_0) (View.ld x1 r1_0) (View.ld x2 r1_1)⟩]

theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_linear_kernel_bias i arg1 harg1 arg2 harg2 arg3 harg3 arg4 harg4) K := by
  simp only [cc1_linear_kernel_bias_eq_skeleton]; unfold cc1_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
import proofs.«401353_j50216757624952_3_alg».proof.Proof.Gen.KernelIdeal.Launch
import proofs.«401353_j50216757624952_3_alg».proof.Proof.Gen.KernelIdeal.Skeleton
import proofs.«401353_j50216757624952_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0

abbrev r2_1 : Rect S1024 := Rect.unit (s := S1024) ![0] S1024.size inb_S1024_S1024_0

def out2_3 (x0 : Vec F S1024x1024 .f32) (x1 : Vec F S1024x1024 .bf16) (x2 : Vec F S1024 .f32) : Vec F S1024x1024 .bf16 :=
  View.canon [⟨r2_0, k2_pay1 (View.ld x0 r2_0) (View.ld x1 r2_0) (View.ld x2 r2_1)⟩]

theorem cover2_3 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_linear_kernel_bias i arg1 harg1 arg2 harg2 arg3 harg3 arg4 harg4) K := by
  simp only [cc2_linear_kernel_bias_eq_skeleton]; unfold cc2_linear_kernel_bias_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.AttnSpec.lean ====
import proofs.«401353_j50216757624952_3_alg».proof.Proof.Gen.KernelIdeal.Skeleton

noncomputable section

namespace Cert.KernelIdeal.Hand

open Cert.KernelIdeal Cert.KernelIdeal.Gen
open Idealize.ShloMosaic

variable {F : FTy → Type} [FloatOps F]

structure St (F : FTy → Type) where
  m0 : Vec F S1024x1 .f32
  l0 : Vec F S1024x1 .f32
  a0 : Vec F S1024x64 .f32
  m1 : Vec F S1024x1 .f32
  l1 : Vec F S1024x1 .f32
  a1 : Vec F S1024x64 .f32

def stReset : St F := ⟨k3_pay4 (F := F), k3_pay5 (F := F), k3_pay6 (F := F), k3_pay7 (F := F), k3_pay8 (F := F), k3_pay9 (F := F)⟩

def stStep (q k v : Vec F S1024x128 .bf16) (s : St F) : St F where
  m0 := k3_pay24 (k3_pay18 q k s.m0)
  l0 := k3_pay22 (k3_pay21 q k s.m0 s.m0 s.l0)
  a0 := k3_pay23 (k3_pay15 v) (k3_pay19 q k s.m0 s.m0) (k3_pay20 q k s.m0) s.a0
  m1 := k3_pay2 (k3_pay26 (k3_pay13 q) (k3_pay14 k) s.m1)
  l1 := k3_pay29 (k3_pay13 q) (k3_pay14 k) s.m1 s.m1 s.l1
  a1 := k3_pay1 (k3_pay16 v) (k3_pay27 (k3_pay13 q) (k3_pay14 k) s.m1 s.m1) (k3_pay28 (k3_pay13 q) (k3_pay14 k) s.m1) s.a1

def stOut (s : St F) : Vec F S1024x128 .bf16 := k3_pay3 s.a0 s.l0 s.a1 s.l1

end Cert.KernelIdeal.Hand

end
-- ==== Proof.KI.AttnBase.lean ====
import proofs.«401353_j50216757624952_3_alg».proof.Proof.Gen.KernelIdeal.Launch
import proofs.«401353_j50216757624952_3_alg».proof.Proof.Gen.KernelIdeal.Points
import proofs.«401353_j50216757624952_3_alg».proof.Proof.KI.AttnSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 3).val) 0#32)) 0#32) = 1#1

theorem hcond3_0 : ∀ t : Fin cfg3.N, cond3_0 (grid3.coords t) ↔ t.val % 2 = 0 :=
  (by decide +kernel : ∀ t : Fin grid3.N, cond3_0 (grid3.coords t) ↔ t.val % 2 = 0)

abbrev cond3_1 (i : grid3.Coords) : Prop := k3_cond2 i = 1#1

theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem liveAt3_3_B : ∀ t : Fin cfg3.N, ¬cond3_0 (grid3.coords t) → cond3_1 (grid3.coords t) → cfg3.idle 3 (grid3.coords t) = false := by decide +kernel

abbrev VO3_3 : View sig .tc .vmem S1024x128 .bf16 := (Memref.whole cc3_stg3_0 : Memref sig .tc .vmem S1024x128 .bf16).view

abbrev ms3_0 (t : Fin cfg3.N) : Memref sig .tc .vmem S1024x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .bf16 := win3_3.stage (cfg3.slots t 3)
abbrev hs3_3 (t : Fin cfg3.N) : (ms3_3 t).IsWhole := hstage3_3 ((cfg3.slots t 3).cast nbuf3_3)

abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x64 .f32 := Memref.whole cc3_scratch2
abbrev scM3_3 : Memref sig .tc .vmem S1024x1 .f32 := Memref.whole cc3_scratch3
abbrev scM3_4 : Memref sig .tc .vmem S1024x1 .f32 := Memref.whole cc3_scratch4
abbrev scM3_5 : Memref sig .tc .vmem S1024x64 .f32 := Memref.whole cc3_scratch5

abbrev VS3_0 : View sig .tc .vmem S1024x1 .f32 := scM3_0.view
abbrev VS3_1 : View sig .tc .vmem S1024x1 .f32 := scM3_1.view
abbrev VS3_2 : View sig .tc .vmem S1024x64 .f32 := scM3_2.view
abbrev VS3_3 : View sig .tc .vmem S1024x1 .f32 := scM3_3.view
abbrev VS3_4 : View sig .tc .vmem S1024x1 .f32 := scM3_4.view
abbrev VS3_5 : View sig .tc .vmem S1024x64 .f32 := scM3_5.view

abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ rest3 (F := F) c) ∗ (∃ r, prngReg c r)) := by
  unfold Pipeline.ΦA; rw [scopedRest3_split]; simp only [scM3_0, scM3_1, scM3_2, scM3_3, scM3_4, scM3_5, owns_whole]; try rfl

/-- The attention body's ten memref arguments, each whole. -/
structure Mems where
  a4 : Memref sig .tc .vmem S1024x128 .bf16
  h4 : a4.IsWhole
  a5 : Memref sig .tc .vmem S1024x128 .bf16
  h5 : a5.IsWhole
  a6 : Memref sig .tc .vmem S1024x128 .bf16
  h6 : a6.IsWhole
  a7 : Memref sig .tc .vmem S1024x128 .bf16
  h7 : a7.IsWhole
  a8 : Memref sig .tc .vmem S1024x1 .f32
  h8 : a8.IsWhole
  a9 : Memref sig .tc .vmem S1024x1 .f32
  h9 : a9.IsWhole
  a10 : Memref sig .tc .vmem S1024x64 .f32
  h10 : a10.IsWhole
  a11 : Memref sig .tc .vmem S1024x1 .f32
  h11 : a11.IsWhole
  a12 : Memref sig .tc .vmem S1024x1 .f32
  h12 : a12.IsWhole
  a13 : Memref sig .tc .vmem S1024x64 .f32
  h13 : a13.IsWhole

end Cert.KernelIdeal.Hand

end
-- ==== Proof.KI.AttnRunA.lean ====
import proofs.«401353_j50216757624952_3_alg».proof.Proof.KI.AttnBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (M : Mems) (hc0 : cond3_0 i) (hc1 : ¬cond3_1 i)
    (x0 : Vec F S1024x128 .bf16) (x1 : Vec F S1024x128 .bf16) (x2 : Vec F S1024x128 .bf16) :
    Σ' (L3 : List (View.Piece (Elt F) S1024x128 .bf16)) (LS0 : List (View.Piece (Elt F) S1024x1 .f32)) (LS1 : List (View.Piece (Elt F) S1024x1 .f32)) (LS2 : List (View.Piece (Elt F) S1024x64 .f32)) (LS3 : List (View.Piece (Elt F) S1024x1 .f32)) (LS4 : List (View.Piece (Elt F) S1024x1 .f32)), { LS5 : List (View.Piece (Elt F) S1024x64 .f32) //
      ∀ (xi3 : Vec F S1024x128 .bf16) (E : Set ℕ) (K : PUnit → sProp 𝕄),
        iprop(owns (c : Thread nD τ) M.a4 fullShare x0 ∗ owns (c : Thread nD τ) M.a5 fullShare x1 ∗ owns (c : Thread nD τ) M.a6 fullShare x2 ∗ owns (c : Thread nD τ) M.a7 fullShare xi3 ∗ (∃ d, owns (c : Thread nD τ) M.a8 fullShare d) ∗ (∃ d, owns (c : Thread nD τ) M.a9 fullShare d) ∗ (∃ d, owns (c : Thread nD τ) M.a10 fullShare d) ∗ (∃ d, owns (c : Thread nD τ) M.a11 fullShare d) ∗ (∃ d, owns (c : Thread nD τ) M.a12 fullShare d) ∗ (∃ d, owns (c : Thread nD τ) M.a13 fullShare d)
            ∗ (iprop(owns (c : Thread nD τ) M.a4 fullShare x0 ∗ owns (c : Thread nD τ) M.a5 fullShare x1 ∗ owns (c : Thread nD τ) M.a6 fullShare x2 ∗ owns (c : Thread nD τ) M.a7 fullShare xi3 ∗ (∃ f, M.a8.view.loc (c : Thread nD τ) ↦[M.a8.view.set]{fullShare} M.a8.view.writes (Elt F) f LS0) ∗ (∃ f, M.a9.view.loc (c : Thread nD τ) ↦[M.a9.view.set]{fullShare} M.a9.view.writes (Elt F) f LS1) ∗ (∃ f, M.a10.view.loc (c : Thread nD τ) ↦[M.a10.view.set]{fullShare} M.a10.view.writes (Elt F) f LS2) ∗ (∃ f, M.a11.view.loc (c : Thread nD τ) ↦[M.a11.view.set]{fullShare} M.a11.view.writes (Elt F) f LS3) ∗ (∃ f, M.a12.view.loc (c : Thread nD τ) ↦[M.a12.view.set]{fullShare} M.a12.view.writes (Elt F) f LS4) ∗ (∃ f, M.a13.view.loc (c : Thread nD τ) ↦[M.a13.view.set]{fullShare} M.a13.view.writes (Elt F) f LS5)) -∗ K ⟨⟩))
          ⊢ wp frame (wpE (defs₀ (F := F)) Variants.none c none) E (cc3_attn_kernel i M.a4 M.h4 M.a5 M.h5 M.a6 M.h6 M.a7 M.h7 M.a8 M.h8 M.a9 M.h9 M.a10 M.h10 M.a11 M.h11 M.a12 M.h12 M.a13 M.h13) K } := by
  refine ⟨[], ?_, ?_, ?_, ?_, ?_, ?_, fun xi3 E K => ?run⟩
  case run =>
    simp only [cc3_attn_kernel_eq_skeleton]; unfold cc3_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := M.h4.eq_unread hf0; obtain rfl := M.h5.eq_unread hf1; obtain rfl := M.h6.eq_unread hf2; obtain rfl := M.h7.eq_unread hf3
    sl_exec (disch := first | exact hc0 | exact hc1)
    sl_step
    iapply Hk
    isplitl [H0]
    · iexists _; isplitr; · ipureintro; exact M.h4.read_unread _
      iexact H0
    isplitl [H1]
    · iexists _; isplitr; · ipureintro; exact M.h5.read_unread _
      iexact H1
    isplitl [H2]
    · iexists _; isplitr; · ipureintro; exact M.h6.read_unread _
      iexact H2
    isplitl [H3]
    · iexists _; isplitr; · ipureintro; exact M.h7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.AttnRunB.lean ====
import proofs.«401353_j50216757624952_3_alg».proof.Proof.KI.AttnBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (M : Mems) (hc0 : ¬cond3_0 i) (hc1 : cond3_1 i)
    (x0 : Vec F S1024x128 .bf16) (x1 : Vec F S1024x128 .bf16) (x2 : Vec F S1024x128 .bf16)
    (s : St F) :
    Σ' (L3 : List (View.Piece (Elt F) S1024x128 .bf16)) (LS0 : List (View.Piece (Elt F) S1024x1 .f32)) (LS1 : List (View.Piece (Elt F) S1024x1 .f32)) (LS2 : List (View.Piece (Elt F) S1024x64 .f32)) (LS3 : List (View.Piece (Elt F) S1024x1 .f32)) (LS4 : List (View.Piece (Elt F) S1024x1 .f32)), { LS5 : List (View.Piece (Elt F) S1024x64 .f32) //
      ∀ (E : Set ℕ) (K : PUnit → sProp 𝕄),
        iprop(owns (c : Thread nD τ) M.a4 fullShare x0 ∗ owns (c : Thread nD τ) M.a5 fullShare x1 ∗ owns (c : Thread nD τ) M.a6 fullShare x2 ∗ (∃ d, owns (c : Thread nD τ) M.a7 fullShare d) ∗ owns (c : Thread nD τ) M.a8 fullShare s.m0 ∗ owns (c : Thread nD τ) M.a9 fullShare s.l0 ∗ owns (c : Thread nD τ) M.a10 fullShare s.a0 ∗ owns (c : Thread nD τ) M.a11 fullShare s.m1 ∗ owns (c : Thread nD τ) M.a12 fullShare s.l1 ∗ owns (c : Thread nD τ) M.a13 fullShare s.a1
            ∗ (iprop(owns (c : Thread nD τ) M.a4 fullShare x0 ∗ owns (c : Thread nD τ) M.a5 fullShare x1 ∗ owns (c : Thread nD τ) M.a6 fullShare x2 ∗ (∃ f, M.a7.view.loc (c : Thread nD τ) ↦[M.a7.view.set]{fullShare} M.a7.view.writes (Elt F) f L3) ∗ (∃ f, M.a8.view.loc (c : Thread nD τ) ↦[M.a8.view.set]{fullShare} M.a8.view.writes (Elt F) f LS0) ∗ (∃ f, M.a9.view.loc (c : Thread nD τ) ↦[M.a9.view.set]{fullShare} M.a9.view.writes (Elt F) f LS1) ∗ (∃ f, M.a10.view.loc (c : Thread nD τ) ↦[M.a10.view.set]{fullShare} M.a10.view.writes (Elt F) f LS2) ∗ (∃ f, M.a11.view.loc (c : Thread nD τ) ↦[M.a11.view.set]{fullShare} M.a11.view.writes (Elt F) f LS3) ∗ (∃ f, M.a12.view.loc (c : Thread nD τ) ↦[M.a12.view.set]{fullShare} M.a12.view.writes (Elt F) f LS4) ∗ (∃ f, M.a13.view.loc (c : Thread nD τ) ↦[M.a13.view.set]{fullShare} M.a13.view.writes (Elt F) f LS5)) -∗ K ⟨⟩))
          ⊢ wp frame (wpE (defs₀ (F := F)) Variants.none c none) E (cc3_attn_kernel i M.a4 M.h4 M.a5 M.h5 M.a6 M.h6 M.a7 M.h7 M.a8 M.h8 M.a9 M.h9 M.a10 M.h10 M.a11 M.h11 M.a12 M.h12 M.a13 M.h13) K } := by
  refine ⟨?_, ?_, ?_, ?_, ?_, ?_, ?_, fun E K => ?run⟩
  case run =>
    simp only [cc3_attn_kernel_eq_skeleton]; unfold cc3_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := M.h4.eq_unread hf0; obtain rfl := M.h5.eq_unread hf1; obtain rfl := M.h6.eq_unread hf2
    obtain rfl := M.h8.eq_unread hfs0; obtain rfl := M.h9.eq_unread hfs1; obtain rfl := M.h10.eq_unread hfs2; obtain rfl := M.h11.eq_unread hfs3; obtain rfl := M.h12.eq_unread hfs4; obtain rfl := M.h13.eq_unread hfs5
    sl_exec (disch := first | exact hc0 | exact hc1)
    sl_step
    iapply Hk
    isplitl [H0]
    · iexists _; isplitr; · ipureintro; exact M.h4.read_unread _
      iexact H0
    isplitl [H1]
    · iexists _; isplitr; · ipureintro; exact M.h5.read_unread _
      iexact H1
    isplitl [H2]
    · iexists _; isplitr; · ipureintro; exact M.h6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.AttnOuts.lean ====
import proofs.«401353_j50216757624952_3_alg».proof.Proof.KI.AttnRunA
import proofs.«401353_j50216757624952_3_alg».proof.Proof.KI.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The body's memref arguments at grid point `t`. -/
abbrev memsAt (t : Fin cfg3.N) : Mems :=
  ⟨ms3_0 t, hs3_0 t, ms3_1 t, hs3_1 t, ms3_2 t, hs3_2 t, ms3_3 t, hs3_3 t, scM3_0, Memref.isWhole_whole _, scM3_1, Memref.isWhole_whole _,
    scM3_2, Memref.isWhole_whole _, scM3_3, Memref.isWhole_whole _, scM3_4, Memref.isWhole_whole _, scM3_5, Memref.isWhole_whole _⟩

section
variable (c : Dev nD) (i : grid3.Coords) (M : Mems) (x0 x1 x2 : Vec F S1024x128 .bf16)

section
variable (hc0 : cond3_0 i) (hc1 : ¬cond3_1 i)

theorem scoverA_0 (y : S1024x1.Idx) : ∃ pc ∈ (kernelRun3_A c i M hc0 hc1 x0 x1 x2).2.1, y ∈ pc.1.set :=
  View.cover_of_tiledL (kernelRun3_A c i M hc0 hc1 x0 x1 x2).2.1 S1024x1.size (by sl_kernel_rfl) y
theorem scoverA_1 (y : S1024x1.Idx) : ∃ pc ∈ (kernelRun3_A c i M hc0 hc1 x0 x1 x2).2.2.1, y ∈ pc.1.set :=
  View.cover_of_tiledL (kernelRun3_A c i M hc0 hc1 x0 x1 x2).2.2.1 S1024x1.size (by sl_kernel_rfl) y
theorem scoverA_2 (y : S1024x64.Idx) : ∃ pc ∈ (kernelRun3_A c i M hc0 hc1 x0 x1 x2).2.2.2.1, y ∈ pc.1.set :=
  View.cover_of_tiledL (kernelRun3_A c i M hc0 hc1 x0 x1 x2).2.2.2.1 S1024x64.size (by sl_kernel_rfl) y
theorem scoverA_3 (y : S1024x1.Idx) : ∃ pc ∈ (kernelRun3_A c i M hc0 hc1 x0 x1 x2).2.2.2.2.1, y ∈ pc.1.set :=
  View.cover_of_tiledL (kernelRun3_A c i M hc0 hc1 x0 x1 x2).2.2.2.2.1 S1024x1.size (by sl_kernel_rfl) y
theorem scoverA_4 (y : S1024x1.Idx) : ∃ pc ∈ (kernelRun3_A c i M hc0 hc1 x0 x1 x2).2.2.2.2.2.1, y ∈ pc.1.set :=
  View.cover_of_tiledL (kernelRun3_A c i M hc0 hc1 x0 x1 x2).2.2.2.2.2.1 S1024x1.size (by sl_kernel_rfl) y
theorem scoverA_5 (y : S1024x64.Idx) : ∃ pc ∈ (kernelRun3_A c i M hc0 hc1 x0 x1 x2).2.2.2.2.2.2.1, y ∈ pc.1.set :=
  View.cover_of_tiledL (kernelRun3_A c i M hc0 hc1 x0 x1 x2).2.2.2.2.2.2.1 S1024x64.size (by sl_kernel_rfl) y

/-- The six carried values after the case `ki = 0`: its stores read back. -/
def soutA : St F where
  m0 := VS3_0.read (Elt F) (VS3_0.writes (Elt F) VS3_0.junk (kernelRun3_A c i M hc0 hc1 x0 x1 x2).2.1)
  l0 := VS3_1.read (Elt F) (VS3_1.writes (Elt F) VS3_1.junk (kernelRun3_A c i M hc0 hc1 x0 x1 x2).2.2.1)
  a0 := VS3_2.read (Elt F) (VS3_2.writes (Elt F) VS3_2.junk (kernelRun3_A c i M hc0 hc1 x0 x1 x2).2.2.2.1)
  m1 := VS3_3.read (Elt F) (VS3_3.writes (Elt F) VS3_3.junk (kernelRun3_A c i M hc0 hc1 x0 x1 x2).2.2.2.2.1)
  l1 := VS3_4.read (Elt F) (VS3_4.writes (Elt F) VS3_4.junk (kernelRun3_A c i M hc0 hc1 x0 x1 x2).2.2.2.2.2.1)
  a1 := VS3_5.read (Elt F) (VS3_5.writes (Elt F) VS3_5.junk (kernelRun3_A c i M hc0 hc1 x0 x1 x2).2.2.2.2.2.2.1)

end

section
variable (hc0 : ¬cond3_0 i) (hc1 : cond3_1 i) (s : St F)

theorem coverB_3 (y : S1024x128.Idx) : ∃ pc ∈ (kernelRun3_B c i M hc0 hc1 x0 x1 x2 s).1, y ∈ pc.1.set :=
  View.cover_of_tiledL (kernelRun3_B c i M hc0 hc1 x0 x1 x2 s).1 S1024x128.size (by sl_kernel_rfl) y
theorem scoverB_0 (y : S1024x1.Idx) : ∃ pc ∈ (kernelRun3_B c i M hc0 hc1 x0 x1 x2 s).2.1, y ∈ pc.1.set :=
  View.cover_of_tiledL (kernelRun3_B c i M hc0 hc1 x0 x1 x2 s).2.1 S1024x1.size (by sl_kernel_rfl) y
theorem scoverB_1 (y : S1024x1.Idx) : ∃ pc ∈ (kernelRun3_B c i M hc0 hc1 x0 x1 x2 s).2.2.1, y ∈ pc.1.set :=
  View.cover_of_tiledL (kernelRun3_B c i M hc0 hc1 x0 x1 x2 s).2.2.1 S1024x1.size (by sl_kernel_rfl) y
theorem scoverB_2 (y : S1024x64.Idx) : ∃ pc ∈ (kernelRun3_B c i M hc0 hc1 x0 x1 x2 s).2.2.2.1, y ∈ pc.1.set :=
  View.cover_of_tiledL (kernelRun3_B c i M hc0 hc1 x0 x1 x2 s).2.2.2.1 S1024x64.size (by sl_kernel_rfl) y
theorem scoverB_3 (y : S1024x1.Idx) : ∃ pc ∈ (kernelRun3_B c i M hc0 hc1 x0 x1 x2 s).2.2.2.2.1, y ∈ pc.1.set :=
  View.cover_of_tiledL (kernelRun3_B c i M hc0 hc1 x0 x1 x2 s).2.2.2.2.1 S1024x1.size (by sl_kernel_rfl) y
theorem scoverB_4 (y : S1024x1.Idx) : ∃ pc ∈ (kernelRun3_B c i M hc0 hc1 x0 x1 x2 s).2.2.2.2.2.1, y ∈ pc.1.set :=
  View.cover_of_tiledL (kernelRun3_B c i M hc0 hc1 x0 x1 x2 s).2.2.2.2.2.1 S1024x1.size (by sl_kernel_rfl) y
theorem scoverB_5 (y : S1024x64.Idx) : ∃ pc ∈ (kernelRun3_B c i M hc0 hc1 x0 x1 x2 s).2.2.2.2.2.2.1, y ∈ pc.1.set :=
  View.cover_of_tiledL (kernelRun3_B c i M hc0 hc1 x0 x1 x2 s).2.2.2.2.2.2.1 S1024x64.size (by sl_kernel_rfl) y

/-- The output block after the case `ki = 1`, -/
def outB_3 : Vec F S1024x128 .bf16 := VO3_3.read (Elt F) (VO3_3.writes (Elt F) VO3_3.junk (kernelRun3_B c i M hc0 hc1 x0 x1 x2 s).1)

/-- and the six carried values, from those the point before left (`s`). -/
def soutB : St F where
  m0 := VS3_0.read (Elt F) (VS3_0.writes (Elt F) VS3_0.junk (kernelRun3_B c i M hc0 hc1 x0 x1 x2 s).2.1)
  l0 := VS3_1.read (Elt F) (VS3_1.writes (Elt F) VS3_1.junk (kernelRun3_B c i M hc0 hc1 x0 x1 x2 s).2.2.1)
  a0 := VS3_2.read (Elt F) (VS3_2.writes (Elt F) VS3_2.junk (kernelRun3_B c i M hc0 hc1 x0 x1 x2 s).2.2.2.1)
  m1 := VS3_3.read (Elt F) (VS3_3.writes (Elt F) VS3_3.junk (kernelRun3_B c i M hc0 hc1 x0 x1 x2 s).2.2.2.2.1)
  l1 := VS3_4.read (Elt F) (VS3_4.writes (Elt F) VS3_4.junk (kernelRun3_B c i M hc0 hc1 x0 x1 x2 s).2.2.2.2.2.1)
  a1 := VS3_5.read (Elt F) (VS3_5.writes (Elt F) VS3_5.junk (kernelRun3_B c i M hc0 hc1 x0 x1 x2 s).2.2.2.2.2.2.1)

end
end

theorem hcA0 (t : Fin cfg3.N) (h : t.val % 2 = 0) : cond3_0 (grid3.coords t) := (hcond3_0 t).mpr h
theorem hcA1 (t : Fin cfg3.N) (h : t.val % 2 = 0) : ¬cond3_1 (grid3.coords t) := fun hh => by
  have := (hcond3_1 t).mp hh; omega
theorem hcB0 (t : Fin cfg3.N) (h : ¬t.val % 2 = 0) : ¬cond3_0 (grid3.coords t) := fun hh => h ((hcond3_0 t).mp hh)
theorem hcB1 (t : Fin cfg3.N) (h : ¬t.val % 2 = 0) : cond3_1 (grid3.coords t) := (hcond3_1 t).mpr (by omega)

variable (c : Dev nD)

/-- The carried values after an even point `t`. -/
def ptA (t : Fin cfg3.N) (h : t.val % 2 = 0) : St F :=
  soutA c (grid3.coords t) (memsAt t) (iblk3 V c 0 t) (iblk3 V c 1 t) (iblk3 V c 2 t) (hcA0 t h) (hcA1 t h)

/-- The output block and the carried values after an odd point `t`, over the values `s` the point before left. -/
def ptB (t : Fin cfg3.N) (h : ¬t.val % 2 = 0) (s : St F) : Vec F S1024x128 .bf16 × St F :=
  (outB_3 c (grid3.coords t) (memsAt t) (iblk3 V c 0 t) (iblk3 V c 1 t) (iblk3 V c 2 t) (hcB0 t h) (hcB1 t h) s,
    soutB c (grid3.coords t) (memsAt t) (iblk3 V c 0 t) (iblk3 V c 1 t) (iblk3 V c 2 t) (hcB0 t h) (hcB1 t h) s)

/-- The output block and the carried values after the body at position `n`: the grid alternates the two cases
    (at an even point the first component is a placeholder nothing reads). -/
def outsAt3 : (n : ℕ) → n < cfg3.N → Vec F S1024x128 .bf16 × St F
  | 0, hn => (VO3_3.read (Elt F) VO3_3.junk, ptA V c ⟨0, hn⟩ (Nat.zero_mod _))
  | n + 1, hn =>
    if h0 : (n + 1) % 2 = 0 then (VO3_3.read (Elt F) VO3_3.junk, ptA V c ⟨n + 1, hn⟩ h0)
    else ptB V c ⟨n + 1, hn⟩ h0 (outsAt3 n (Nat.lt_of_succ_lt hn)).2

theorem outsAt3_A (t : Fin cfg3.N) (h0 : t.val % 2 = 0) :
    outsAt3 V c t.val t.isLt = (VO3_3.read (Elt F) VO3_3.junk, ptA V c t h0) := by
  obtain ⟨n, hn⟩ := t
  cases n with
  | zero => exact rfl
  | succ n => exact (dif_pos h0).trans rfl

theorem outsAt3_B (t : Fin cfg3.N) (h0 : ¬t.val % 2 = 0) :
    outsAt3 V c t.val t.isLt = ptB V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The carried values after point `n`. -/
def stAt3 : (n : ℕ) → n < cfg3.N → St F := fun n hn => (outsAt3 V c n hn).2

end Cert.KernelIdeal.Hand

end
-- ==== Proof.KI.AttnFrame.lean ====
import proofs.«401353_j50216757624952_3_alg».proof.Proof.KI.AttnOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Stores that cover a buffer leave their read-back in it, whatever it held before. -/
theorem owns_of_cover {S : Shape} {e : EltTy} (c : Dev nD) (a : Memref sig .tc .vmem S e) (v : View sig .tc .vmem S e)
    (L : List (View.Piece (Elt F) S e)) (h : ∀ y, ∃ p ∈ L, y ∈ p.1.set) :
    iprop(∃ f, a.view.loc (c : Thread nD τ) ↦[a.view.set]{fullShare} a.view.writes (Elt F) f L)
      ⊢ (owns (c : Thread nD τ) a fullShare (v.read (Elt F) (v.writes (Elt F) v.junk L)) : sProp 𝕄) := by
  unfold owns
  iintro ⟨%f, H⟩
  iexists _; isplitr
  swap; · iexact H
  ipureintro; exact View.read_writes_of_cover _ _ _ _ _ h

/-- The six scratch memrefs owned at the six components of `s`. -/
abbrev ownsSt (c : Dev nD) (s : St F) : sProp 𝕄 :=
  iprop(owns (c : Thread nD τ) scM3_0 fullShare s.m0 ∗ owns (c : Thread nD τ) scM3_1 fullShare s.l0 ∗ owns (c : Thread nD τ) scM3_2 fullShare s.a0
    ∗ owns (c : Thread nD τ) scM3_3 fullShare s.m1 ∗ owns (c : Thread nD τ) scM3_4 fullShare s.l1 ∗ owns (c : Thread nD τ) scM3_5 fullShare s.a1)

/-- The region invariant before position `n`: before the first point the scratch holds anything, afterwards the carried values. -/
def PhiS3 (c : Dev nD) : (n : ℕ) → n ≤ cfg3.N → sProp 𝕄
  | 0, _ => Pipeline.ΦA spec3 c
  | n + 1, hn => iprop(iprop(ownsSt c (outsAt3 V c n hn).2 ∗ rest3 (F := F) c) ∗ (∃ r, prngReg c r))

theorem PhiS3_pos (c : Dev nD) (n : ℕ) (h : n ≤ cfg3.N) (hz : n ≠ 0) :
    PhiS3 V c n h = iprop(iprop(ownsSt c (outsAt3 V c (n - 1) (by omega)).2 ∗ rest3 (F := F) c) ∗ (∃ r, prngReg c r)) := by
  cases n with
  | zero => exact absurd rfl hz
  | succ n => rfl

/-- Forgetting the carried values weakens the invariant to the one before the first point. -/
theorem PhiS3_le (c : Dev nD) (n : ℕ) (h : n ≤ cfg3.N) : PhiS3 V c n h ⊢ Pipeline.ΦA spec3 c := by
  cases n with
  | zero => exact Idealize.SL.BI.Entails.refl _
  | succ n =>
    rw [PhiA3_eq]
    show iprop(iprop(ownsSt c (outsAt3 V c n h).2 ∗ rest3 (F := F) c) ∗ (∃ r, prngReg c r)) ⊢ _
    iintro ⟨⟨⟨HS0, HS1, HS2, HS3, HS4, HS5⟩, Hr⟩, Hg⟩
    isplitl [HS0 HS1 HS2 HS3 HS4 HS5 Hr]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexists _; iexact HS5
      iexact Hr
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: its parity says which case runs; the invariant lends that case the six scratch memrefs and
    takes them back at the point's carried values. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = iprop(iprop(ownsSt c (outsAt3 V c t.val t.isLt).2 ∗ rest3 (F := F) c) ∗ (∃ r, prngReg c r)) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [PhiS3_castSucc V c t]
  by_cases h0 : t.val % 2 = 0
  · rw [Dat.leavesExact_idle (dat3 V c) 3 t (idleAt3_3_A t (hcA0 t h0) (hcA1 t h0)) (noFlush3_3_A t (hcA0 t h0) (hcA1 t h0))]
    rw [outsAt3_A V c t h0]
    unfold ptA soutA; (try dsimp only)
    have hle := PhiS3_le V c t.val (Nat.le_of_lt t.isLt)
    rw [PhiA3_eq] at hle
    iintro ⟨HΦ, Ho, ⟨%d0, H0⟩, ⟨%d1, H1⟩, ⟨%d2, H2⟩, ⟨%d3, H3⟩⟩
    ihave HΦ := hle $$ HΦ
    icases HΦ with ⟨⟨⟨HS0, HS1, HS2, HS3, HS4, HS5⟩, Hr⟩, Hg⟩
    iapply ((kernelRun3_A c (grid3.coords t) (memsAt t) (hcA0 t h0) (hcA1 t h0) (iblk3 V c 0 t) (iblk3 V c 1 t) (iblk3 V c 2 t)).2.2.2.2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, HS0, HS1, HS2, HS3, HS4, HS5⟩
    isplitl [HS0 HS1 HS2 HS3 HS4 HS5 Hr Hg]
    · isplitl [HS0 HS1 HS2 HS3 HS4 HS5 Hr]
      · isplitl [HS0 HS1 HS2 HS3 HS4 HS5]
        · isplitl [HS0]; · iapply owns_of_cover c _ _ _ (scoverA_0 c _ _ _ _ _ _ _); iexact HS0
          isplitl [HS1]; · iapply owns_of_cover c _ _ _ (scoverA_1 c _ _ _ _ _ _ _); iexact HS1
          isplitl [HS2]; · iapply owns_of_cover c _ _ _ (scoverA_2 c _ _ _ _ _ _ _); iexact HS2
          isplitl [HS3]; · iapply owns_of_cover c _ _ _ (scoverA_3 c _ _ _ _ _ _ _); iexact HS3
          isplitl [HS4]; · iapply owns_of_cover c _ _ _ (scoverA_4 c _ _ _ _ _ _ _); iexact HS4
          iapply owns_of_cover c _ _ _ (scoverA_5 c _ _ _ _ _ _ _); iexact HS5
        iexact Hr
      iexact Hg
    isplitl [Ho]; · iexact Ho
    isplitl [H0]; · iexact H0
    isplitl [H1]; · iexact H1
    isplitl [H2]; · iexact H2
    iexists _; iexact H3
  · rw [PhiS3_pos V c _ _ fun e => h0 (by rw [e])]
    rw [show (dat3 V c).leavesExact 3 t = owns (c : Thread nD τ) (ms3_3 t) fullShare ((dat3 V c).after 3 t) from by
      unfold Dat.leavesExact; rw [liveAt3_3_B t (hcB0 t h0) (hcB1 t h0)], after3_3]
    rw [outsAt3_B V c t h0]
    unfold ptB outB_3 soutB; (try dsimp only)
    iintro ⟨⟨⟨⟨HS0, HS1, HS2, HS3, HS4, HS5⟩, Hr⟩, Hg⟩, Ho, ⟨%d0, H0⟩, ⟨%d1, H1⟩, ⟨%d2, H2⟩, ⟨%d3, H3⟩⟩
    iapply ((kernelRun3_B c (grid3.coords t) (memsAt t) (hcB0 t h0) (hcB1 t h0) (iblk3 V c 0 t) (iblk3 V c 1 t) (iblk3 V c 2 t)
      (outsAt3 V c (t.val - 1) (Nat.lt_of_le_of_lt (Nat.sub_le _ _) t.isLt)).2).2.2.2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, HS0, HS1, HS2, HS3, HS4, HS5⟩
    isplitl [HS0 HS1 HS2 HS3 HS4 HS5 Hr Hg]
    · isplitl [HS0 HS1 HS2 HS3 HS4 HS5 Hr]
      · isplitl [HS0 HS1 HS2 HS3 HS4 HS5]
        · isplitl [HS0]; · iapply owns_of_cover c _ _ _ (scoverB_0 c _ _ _ _ _ _ _ _); iexact HS0
          isplitl [HS1]; · iapply owns_of_cover c _ _ _ (scoverB_1 c _ _ _ _ _ _ _ _); iexact HS1
          isplitl [HS2]; · iapply owns_of_cover c _ _ _ (scoverB_2 c _ _ _ _ _ _ _ _); iexact HS2
          isplitl [HS3]; · iapply owns_of_cover c _ _ _ (scoverB_3 c _ _ _ _ _ _ _ _); iexact HS3
          isplitl [HS4]; · iapply owns_of_cover c _ _ _ (scoverB_4 c _ _ _ _ _ _ _ _); iexact HS4
          iapply owns_of_cover c _ _ _ (scoverB_5 c _ _ _ _ _ _ _ _); iexact HS5
        iexact Hr
      iexact Hg
    isplitl [Ho]; · iexact Ho
    isplitl [H0]; · iexact H0
    isplitl [H1]; · iexact H1
    isplitl [H2]; · iexact H2
    iapply owns_of_cover c _ _ _ (coverB_3 c _ _ _ _ _ _ _ _); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c :=
  PhiS3_le V c (Fin.last cfg3.N).val (Nat.le_of_lt_succ (Fin.last cfg3.N).isLt)

end Cert.KernelIdeal.Hand

end
-- ==== Proof.KI.AttnPieces.lean ====
import proofs.«401353_j50216757624952_3_alg».proof.Proof.KI.AttnOuts
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz00 : (![0, 0] : Fin 2 → Nat) = fun _ => 0 := funext fun a => by fin_cases a <;> rfl

section
variable (c : Dev nD) (i : grid3.Coords) (M : Mems) (x0 x1 x2 : Vec F S1024x128 .bf16)

/-- The case `ki = 0` leaves one update of the reset state. -/
theorem soutA_eq (hc0 : cond3_0 i) (hc1 : ¬cond3_1 i) : soutA c i M x0 x1 x2 hc0 hc1 = stStep x0 x1 x2 (stReset (F := F)) := by
  unfold soutA stStep stReset
  dsimp only
  simp only [View.read_writes_eq_canon _ _ _ (scoverA_0 c i M x0 x1 x2 hc0 hc1),
    View.read_writes_eq_canon _ _ _ (scoverA_1 c i M x0 x1 x2 hc0 hc1),
    View.read_writes_eq_canon _ _ _ (scoverA_2 c i M x0 x1 x2 hc0 hc1),
    View.read_writes_eq_canon _ _ _ (scoverA_3 c i M x0 x1 x2 hc0 hc1),
    View.read_writes_eq_canon _ _ _ (scoverA_4 c i M x0 x1 x2 hc0 hc1),
    View.read_writes_eq_canon _ _ _ (scoverA_5 c i M x0 x1 x2 hc0 hc1)]
  unfold kernelRun3_A
  dsimp only
  sl_unfold_words
  simp only [View.canon_cons_unit_zero (S := S1024x1) hz00, View.canon_cons_unit_zero (S := S1024x64) hz00, View.readAt_eq_ld, M.h4.read_unread, M.h5.read_unread, M.h6.read_unread, M.h8.read_unread, M.h9.read_unread, M.h10.read_unread, M.h11.read_unread, M.h12.read_unread, M.h13.read_unread, View.ld_unit_zero (S := S1024x128) hz00, View.ld_unit_zero (S := S1024x1) hz00,
    View.ld_unit_zero (S := S1024x64) hz00, View.readCov_unit_zero (S := S1024x1) _ hz00, View.readCov_unit_zero (S := S1024x64) _ hz00]

/-- The case `ki = 1` leaves one update of the state before it, and that state's output block. -/
theorem runB_eq (hc0 : ¬cond3_0 i) (hc1 : cond3_1 i) (s : St F) :
    (outB_3 c i M x0 x1 x2 hc0 hc1 s, soutB c i M x0 x1 x2 hc0 hc1 s) = (stOut (stStep x0 x1 x2 s), stStep x0 x1 x2 s) := by
  unfold outB_3 soutB stOut stStep
  dsimp only
  simp only [View.read_writes_eq_canon _ _ _ (coverB_3 c i M x0 x1 x2 hc0 hc1 s),
    View.read_writes_eq_canon _ _ _ (scoverB_0 c i M x0 x1 x2 hc0 hc1 s),
    View.read_writes_eq_canon _ _ _ (scoverB_1 c i M x0 x1 x2 hc0 hc1 s),
    View.read_writes_eq_canon _ _ _ (scoverB_2 c i M x0 x1 x2 hc0 hc1 s),
    View.read_writes_eq_canon _ _ _ (scoverB_3 c i M x0 x1 x2 hc0 hc1 s),
    View.read_writes_eq_canon _ _ _ (scoverB_4 c i M x0 x1 x2 hc0 hc1 s),
    View.read_writes_eq_canon _ _ _ (scoverB_5 c i M x0 x1 x2 hc0 hc1 s)]
  unfold kernelRun3_B
  dsimp only
  sl_unfold_words
  simp only [View.canon_unit_zero (S := S1024x128) hz00, View.canon_unit_zero (S := S1024x1) hz00, View.canon_unit_zero (S := S1024x64) hz00, View.readAt_eq_ld, M.h4.read_unread, M.h5.read_unread, M.h6.read_unread, M.h8.read_unread, M.h9.read_unread, M.h10.read_unread, M.h11.read_unread, M.h12.read_unread, M.h13.read_unread, View.ld_unit_zero (S := S1024x128) hz00, View.ld_unit_zero (S := S1024x1) hz00,
    View.ld_unit_zero (S := S1024x64) hz00, View.readCov_unit_zero (S := S1024x1) _ hz00, View.readCov_unit_zero (S := S1024x64) _ hz00]

end

variable (c : Dev nD)

theorem stAt3_even (t : Fin cfg3.N) (h : t.val % 2 = 0) :
    stAt3 V c t.val t.isLt = stStep (iblk3 V c 0 t) (iblk3 V c 1 t) (iblk3 V c 2 t) stReset := by
  unfold stAt3
  rw [outsAt3_A V c t h]
  exact soutA_eq c _ _ _ _ _ _ _

theorem ptB_eq (t : Fin cfg3.N) (h : ¬t.val % 2 = 0) (s : St F) :
    ptB V c t h s = (stOut (stStep (iblk3 V c 0 t) (iblk3 V c 1 t) (iblk3 V c 2 t) s), stStep (iblk3 V c 0 t) (iblk3 V c 1 t) (iblk3 V c 2 t) s) :=
  runB_eq c _ _ _ _ _ _ _ s

theorem stAt3_odd (t : Fin cfg3.N) (h : t.val % 2 = 1) :
    stAt3 V c t.val t.isLt = stStep (iblk3 V c 0 t) (iblk3 V c 1 t) (iblk3 V c 2 t) (stAt3 V c (t.val - 1) (Nat.lt_of_le_of_lt (Nat.sub_le _ _) t.isLt)) := by
  unfold stAt3
  rw [outsAt3_B V c t (by omega)]
  exact congrArg Prod.snd (ptB_eq V c t _ _)

end Cert.KernelIdeal.Hand

end
-- ==== Proof.KI.Attn.lean ====
import proofs.«401353_j50216757624952_3_alg».proof.Proof.KI.AttnFrame
import proofs.«401353_j50216757624952_3_alg».proof.Proof.KI.AttnPieces

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- At an odd point the body leaves the output block of the state it has just updated. -/
theorem after3_3_odd (c : Dev nD) (t : Fin cfg3.N) (h : t.val % 2 = 1) : (dat3 V c).after 3 t = stOut (stAt3 V c t.val t.isLt) := by
  have h0 : ¬t.val % 2 = 0 := by omega
  rw [after3_3, stAt3_odd V c t h, outsAt3_B V c t h0]
  exact congrArg Prod.fst (ptB_eq V c t h0 _)

end Cert.KernelIdeal.Hand

end
-- ==== Proof.KI.Lin4.lean ====
import proofs.«401353_j50216757624952_3_alg».proof.Proof.Gen.KernelIdeal.Launch
import proofs.«401353_j50216757624952_3_alg».proof.Proof.Gen.KernelIdeal.Skeleton
import proofs.«401353_j50216757624952_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x1024 := Rect.unit (s := S1024x1024) ![0, 0] S1024x1024.size inb_S1024x1024_S1024x1024_0_0

def out4_2 (x0 : Vec F S1024x1024 .bf16) (x1 : Vec F S1024x1024 .bf16) : Vec F S1024x1024 .f32 :=
  View.canon [⟨r4_0, k4_pay1 (View.ld x0 r4_0) (View.ld x1 r4_0)⟩]

theorem cover4_2 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

set_option maxHeartbeats 1000000 in
theorem sound_kernel4 (c : Dev nD) (E : Set ℕ) (i : grid4.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4_linear_kernel_nobias i arg1 harg1 arg2 harg2 arg3 harg3) K := by
  simp only [cc4_linear_kernel_nobias_eq_skeleton]; unfold cc4_linear_kernel_nobias_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«401353_j50216757624952_3_alg».proof.Proof.KI.Lin0
import proofs.«401353_j50216757624952_3_alg».proof.Proof.KI.Lin1
import proofs.«401353_j50216757624952_3_alg».proof.Proof.KI.Lin2
import proofs.«401353_j50216757624952_3_alg».proof.Proof.KI.Attn
import proofs.«401353_j50216757624952_3_alg».proof.Proof.KI.Lin4
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev V3 : (c : Dev nD) → (b : Ref sig .tc) → Buf (Elt F) ((c : Thread nD τ).loc b) := fun c b => W3 m c b

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

abbrev V4 : (c : Dev nD) → (b : Ref sig .tc) → Buf (Elt F) ((c : Thread nD τ).loc b) := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb

abbrev V5 : (c : Dev nD) → (b : Ref sig .tc) → Buf (Elt F) ((c : Thread nD τ).loc b) := fun c b => W5 m c b

def W6 (c : Dev nD) : Valuation τ sig (Elt F) :=
  Pipeline.withArrays spec4 c (W5 m c) fun w => (dat4 (V5 m) c).arrAt w cfg4.N
theorem W6_arr (c : Dev nD) (w : Fin cfg4.W) :
    W6 m c (Proc.devRef .tc (Pipeline.arrRef spec4 w)) = (dat4 (V5 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb

abbrev V6 : (c : Dev nD) → (b : Ref sig .tc) → Buf (Elt F) ((c : Thread nD τ).loc b) := fun c b => W6 m c b

abbrev W7 : Dev nD → Valuation τ sig (Elt F) := fun c => StableHlo.after hostOps5 (W6 m c)

abbrev admH : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_freshH : (hostOps0 : List (HloOp τ sig (Elt F))).Forall fun op => op.fresh = ∅ := by
  simp only [List.Forall]; repeat' constructor
theorem hostOps5_freshH : (hostOps5 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A kernel region as a segment between two valuations of the buffers that differ only at the region's arrays. -/
def mkReg (p : Fin 5) (lf : Pipeline.LaunchFacts (nD := nD) (τ := τ) cfgs p) (Win Wout : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0)
    (hrec : ∀ c t, (pdats m p c).recorded t = Set.univ)
    (hA : ∀ c w, (pdats m p c).A w = Win c (Proc.devRef .tc (Pipeline.arrRef (cfgs p).spec w)))
    (hF : ∀ c w, Wout c (Proc.devRef .tc (Pipeline.arrRef (cfgs p).spec w)) = (pdats m p c).arrAt w (cfgs p).N)
    (hrest : ∀ c (b : Ref sig .tc), (∀ w, Pipeline.arrRef (cfgs p).spec w ≠ b) → Wout c (Proc.devRef .tc b) = Win c (Proc.devRef .tc b))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) admH (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admH (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (fun w => (hF c w).symm)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev reg0 := mkReg m 0 launch0 (W1 m) (W2 m) (body_obligation0 (V1 m)) (fun _ _ => rfl) (fun _ _ => rfl) (fun _ _ => rfl) (fun _ _ => rfl)
  (W2_arr m) (W2_of_ne m) (fun _ => .rfl) (fun _ => .rfl)
abbrev reg1 := mkReg m 1 launch1 (W2 m) (W3 m) (body_obligation1 (V2 m)) (fun _ _ => rfl) (fun _ _ => rfl) (fun _ _ => rfl) (fun _ _ => rfl)
  (W3_arr m) (W3_of_ne m) (fun _ => .rfl) (fun _ => .rfl)
abbrev reg2 := mkReg m 2 launch2 (W3 m) (W4 m) (body_obligation2 (V3 m)) (fun _ _ => rfl) (fun _ _ => rfl) (fun _ _ => rfl) (fun _ _ => rfl)
  (W4_arr m) (W4_of_ne m) (fun _ => .rfl) (fun _ => .rfl)
abbrev reg3 := mkReg m 3 launch3 (W4 m) (W5 m) (body_obligation3 (V4 m)) (fun _ _ => rfl) (fun _ _ => rfl) (fun _ _ => rfl) (fun _ _ => rfl)
  (W5_arr m) (W5_of_ne m) (hin3 (V4 m)) (hout3 (V4 m))
abbrev reg4 := mkReg m 4 launch4 (W5 m) (W6 m) (body_obligation4 (V5 m)) (fun _ _ => rfl) (fun _ _ => rfl) (fun _ _ => rfl) (fun _ _ => rfl)
  (W6_arr m) (W6_of_ne m) (fun _ => .rfl) (fun _ => .rfl)

abbrev segs : List (Pipeline.Seg (pcfgs (F := F)) admH (pdats m) () defs₀ 𝒱₀ L lv) :=
  [ .host (hseg hostOps0 hostOps0_sub hostOps0_freshH (W0 m)),
    .region (reg0 m), .region (reg1 m), .region (reg2 m), .region (reg3 m), .region (reg4 m),
    .host (hseg hostOps5 hostOps5_sub hostOps5_freshH (W6 m)) ]

theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.Args.lean ====
import proofs.«401353_j50216757624952_3_alg».proof.Proof.KI.Run
import proofs.«401353_j50216757624952_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer that no host operation writes and that is no region's array reaches the end as launched. -/
theorem W7_kept (c : Dev nD) (b : Ref sig .tc) (h5 : b ∉ hostOps5_W) (h4 : ∀ w, Pipeline.arrRef spec4 w ≠ b) (h3 : ∀ w, Pipeline.arrRef spec3 w ≠ b)
    (h2 : ∀ w, Pipeline.arrRef spec2 w ≠ b) (h1 : ∀ w, Pipeline.arrRef spec1 w ≠ b) (h0 : ∀ w, Pipeline.arrRef spec0 w ≠ b) (hh : b ∉ hostOps0_W) :
    W7 m c (Proc.devRef .tc b) = m ((c : Thread nD τ).loc b) :=
  calc W7 m c (Proc.devRef .tc b)
    _ = W6 m c (Proc.devRef .tc b) := StableHlo.after_of_writes_sub hostOps5 _ hostOps5_writes h5
    _ = W5 m c (Proc.devRef .tc b) := W6_of_ne m c b h4
    _ = W4 m c (Proc.devRef .tc b) := W5_of_ne m c b h3
    _ = W3 m c (Proc.devRef .tc b) := W4_of_ne m c b h2
    _ = W2 m c (Proc.devRef .tc b) := W3_of_ne m c b h1
    _ = W1 m c (Proc.devRef .tc b) := W2_of_ne m c b h0
    _ = W0 m c (Proc.devRef .tc b) := StableHlo.after_of_writes_sub hostOps0 _ hostOps0_writes hh
    _ = m ((c : Thread nD τ).loc b) := rfl

theorem W7_main_arg0 (c : Dev nD) : W7 m c (Proc.devRef .tc main_arg0) = m ((c : Thread nD τ).loc main_arg0) :=
  W7_kept m c main_arg0 (by decide) (by decide) (by decide) (by decide) (by decide) (by decide) (by decide)

theorem W7_main_arg1 (c : Dev nD) : W7 m c (Proc.devRef .tc main_arg1) = m ((c : Thread nD τ).loc main_arg1) :=
  W7_kept m c main_arg1 (by decide) (by decide) (by decide) (by decide) (by decide) (by decide) (by decide)

theorem W7_main_arg2 (c : Dev nD) : W7 m c (Proc.devRef .tc main_arg2) = m ((c : Thread nD τ).loc main_arg2) :=
  W7_kept m c main_arg2 (by decide) (by decide) (by decide) (by decide) (by decide) (by decide) (by decide)

theorem W7_main_arg3 (c : Dev nD) : W7 m c (Proc.devRef .tc main_arg3) = m ((c : Thread nD τ).loc main_arg3) :=
  W7_kept m c main_arg3 (by decide) (by decide) (by decide) (by decide) (by decide) (by decide) (by decide)

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps5 _ hostOps5_writes (show main_arg4 ∉ hostOps5_W by decide)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 2).trans (((dat0 (V1 m) c).arrAt_in 2 rfl _).trans (A_eq0 (V1 m) c 2))
    _ = W0 m c (Proc.devRef .tc main_arg4) := StableHlo.after_of_writes_sub hostOps0 _ hostOps0_writes (show main_arg4 ∉ hostOps0_W by decide)
    _ = m ((c : Thread nD τ).loc main_arg4) := rfl

theorem W7_main_arg5 (c : Dev nD) : W7 m c (Proc.devRef .tc main_arg5) = m ((c : Thread nD τ).loc main_arg5) :=
  W7_kept m c main_arg5 (by decide) (by decide) (by decide) (by decide) (by decide) (by decide) (by decide)

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps5 _ hostOps5_writes (show main_arg6 ∉ hostOps5_W by decide)
    _ = W5 m c (Proc.devRef .tc main_arg6) := W6_of_ne m c main_arg6 (by decide)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl

theorem W7_main_arg7 (c : Dev nD) : W7 m c (Proc.devRef .tc main_arg7) = m ((c : Thread nD τ).loc main_arg7) :=
  W7_kept m c main_arg7 (by decide) (by decide) (by decide) (by decide) (by decide) (by decide) (by decide)

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps5 _ hostOps5_writes (show main_arg8 ∉ hostOps5_W by decide)
    _ = W5 m c (Proc.devRef .tc main_arg8) := W6_of_ne m c main_arg8 (by decide)
    _ = W4 m c (Proc.devRef .tc main_arg8) := W5_of_ne m c main_arg8 (by decide)
    _ = W3 m c (Proc.devRef .tc main_arg8) := (W4_arr m c 2).trans (((dat2 (V3 m) c).arrAt_in 2 rfl _).trans (A_eq2 (V3 m) c 2))
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl

theorem W7_main_arg9 (c : Dev nD) : W7 m c (Proc.devRef .tc main_arg9) = m ((c : Thread nD τ).loc main_arg9) :=
  W7_kept m c main_arg9 (by decide) (by decide) (by decide) (by decide) (by decide) (by decide) (by decide)

end Cert.KernelIdeal.Hand

end
-- ==== Proof.Alg.Spec.lean ====
import Idealize.ShloMosaic.PureOps.Ideal
import Idealize.ShloMosaic.PureOps.Ideal.Laws

noncomputable section

namespace Cert.Spec

open Idealize.ShloMosaic
open scoped BigOperators

def rowMax {n : ℕ} (s : Fin n → EReal) : EReal := (Finset.univ : Finset (Fin n)).fold max ⊥ s

def mNew {n : ℕ} (m : EReal) (s : Fin n → EReal) : EReal := max m (rowMax s)

def alpha {n : ℕ} (m : EReal) (s : Fin n → EReal) : EReal := Ideal.exp (m - mNew m s)

def lNew {n : ℕ} (m l : EReal) (s : Fin n → EReal) : EReal :=
  alpha m s * l + ∑ k, Ideal.exp (s k - mNew m s)

def accNew {n : ℕ} (m acc : EReal) (s v : Fin n → EReal) : EReal :=
  alpha m s * acc + ∑ k, Ideal.exp (s k - mNew m s) * v k

def flash2 {n : ℕ} (s0 v0 s1 v1 : Fin n → EReal) : EReal :=
  Ideal.div (accNew (mNew ⊥ s0) (accNew ⊥ 0 s0 v0) s1 v1) (lNew (mNew ⊥ s0) (lNew ⊥ 0 s0) s1)

def softmaxAv {n : ℕ} (s v : Fin n → EReal) : EReal :=
  ∑ k, Ideal.div (Ideal.exp (s k - max ⊥ (rowMax s))) (0 + ∑ k', Ideal.exp (s k' - max ⊥ (rowMax s))) * v k

def kscore (c : EReal) (q kr : Fin 64 → EReal) : EReal := ∑ j, (q j * c) * kr j

def rscore (e : EReal) (q kr : Fin 64 → EReal) : EReal := Ideal.div (∑ j, q j * kr j) e

def lo {α : Type} (f : Fin 2048 → α) : Fin 1024 → α := fun k => f ⟨k.val, by omega⟩
def hi {α : Type} (f : Fin 2048 → α) : Fin 1024 → α := fun k => f ⟨k.val + 1024, by omega⟩

def attnK (c : EReal) (q : Fin 64 → EReal) (kk : Fin 2048 → Fin 64 → EReal) (v : Fin 2048 → EReal) : EReal :=
  flash2 (fun k => kscore c q (lo kk k)) (lo v) (fun k => kscore c q (hi kk k)) (hi v)

def attnR (e : EReal) (q : Fin 64 → EReal) (kk : Fin 2048 → Fin 64 → EReal) (v : Fin 2048 → EReal) : EReal :=
  softmaxAv (fun k => rscore e q (kk k)) v

end Cert.Spec

end
-- ==== Proof.Alg.ModelSpec.lean ====
import proofs.«401353_j50216757624952_3_alg».proof.Proof.Alg.Spec
import Idealize.ShloMosaic.Lib.ValueIdx

noncomputable section

namespace Cert.Spec

open Idealize.ShloMosaic Idealize.ShloMosaic.ValueIdx
open scoped BigOperators

abbrev Mat (a b : ℕ) : Type := Fin a → Fin b → EReal

def proj (x : Mat 8192 1024) (W : Mat 1024 1024) (b : Fin 1024 → EReal) : Mat 8192 1024 :=
  fun r e => (∑ k, x r k * W e k) + b e

def hc (e : Fin 1024) (j : Fin 64) : Fin 1024 := ⟨e.val / 64 * 64 + j.val, by omega⟩

def rowOf (r : Fin 8192) (k : Fin 2048) : Fin 8192 := ⟨r.val / 2048 * 2048 + k.val, by omega⟩

def ctxWith (att : (Fin 64 → EReal) → (Fin 2048 → Fin 64 → EReal) → (Fin 2048 → EReal) → EReal)
    (Q K V : Mat 8192 1024) : Mat 8192 1024 :=
  fun r e => att (fun j => Q r (hc e j)) (fun k j => K (rowOf r k) (hc e j)) (fun k => V (rowOf r k) e)

def outp (C : Mat 8192 1024) (Wo : Mat 1024 1024) : Mat 8192 1024 := fun r d => ∑ e, C r e * Wo d e

def model (att : (Fin 64 → EReal) → (Fin 2048 → Fin 64 → EReal) → (Fin 2048 → EReal) → EReal)
    (xq xk xv : Mat 8192 1024) (Wq : Mat 1024 1024) (bq : Fin 1024 → EReal) (Wk : Mat 1024 1024) (bk : Fin 1024 → EReal)
    (Wv : Mat 1024 1024) (bv : Fin 1024 → EReal) (Wo : Mat 1024 1024) : Mat 8192 1024 :=
  outp (ctxWith att (proj xq Wq bq) (proj xk Wk bk) (proj xv Wv bv)) Wo

def rows3 (x : (⟨3, ![4, 2048, 1024]⟩ : Shape).Idx → EReal) : Mat 8192 1024 :=
  fun r k => x (ix3 (⟨r.val / 2048, by omega⟩ : Fin 4) (⟨r.val % 2048, Nat.mod_lt _ (by decide)⟩ : Fin 2048) k)

def mat2 (w : (⟨2, ![1024, 1024]⟩ : Shape).Idx → EReal) : Mat 1024 1024 := fun e k => w (ix2 e k)
def vec1 (b : (⟨1, ![1024]⟩ : Shape).Idx → EReal) : Fin 1024 → EReal := fun e => b (ix1 e)

def rowAt (b : Fin 4) (s : Fin 2048) : Fin 8192 := ⟨b.val * 2048 + s.val, by omega⟩

end Cert.Spec

end
-- ==== Proof.Val.HostVal.lean ====
import proofs.«401353_j50216757624952_3_alg».proof.Proof.KI.Run
import proofs.«401353_j50216757624952_3_alg».proof.Proof.Alg.ModelSpec
import Idealize.ShloMosaic.Lib.StableHlo.Run
import Idealize.ShloMosaic.Lib.ValueLayout
set_option maxRecDepth 16384

noncomputable section

namespace Cert.KVal

open Cert.KernelIdeal Cert.KernelIdeal.Gen Cert.KernelIdeal.Hand Cert.Spec
open Idealize.ShloMosaic Idealize.ShloMosaic.TcCoe Idealize.ShloMosaic.ValueIdx

theorem flatten_apply {α : Type} (x : (⟨3, ![4, 2048, 1024]⟩ : Shape).Idx → α)
    (h : (⟨3, ![4, 2048, 1024]⟩ : Shape).ShapeCasts ⟨2, ![8192, 1024]⟩) (r : Fin 8192) (k : Fin 1024) :
    shapeCast ⟨2, ![8192, 1024]⟩ x h (ix2 r k)
      = x (ix3 (⟨r.val / 2048, by omega⟩ : Fin 4) (⟨r.val % 2048, Nat.mod_lt _ (by decide)⟩ : Fin 2048) k) :=
  shapeCast_apply x h _ _ (by
    rw [Shape.rowMajor_val_three, Shape.rowMajor_val_two]
    show (r.val / 2048 * 2048 + r.val % 2048) * 1024 + k.val = r.val * 1024 + k.val
    have := Nat.div_add_mod r.val 2048
    omega)

theorem unflatten_apply {α : Type} (x : (⟨2, ![8192, 1024]⟩ : Shape).Idx → α)
    (h : (⟨2, ![8192, 1024]⟩ : Shape).ShapeCasts ⟨3, ![4, 2048, 1024]⟩) (b : Fin 4) (s : Fin 2048) (d : Fin 1024) :
    shapeCast ⟨3, ![4, 2048, 1024]⟩ x h (ix3 b s d) = x (ix2 (rowAt b s) d) :=
  shapeCast_apply x h _ _ (by
    rw [Shape.rowMajor_val_three, Shape.rowMajor_val_two]
    rfl)

variable (m : (ℓ : Loc nD τ sig) → Buf (Elt Ideal) ℓ)

theorem V1_x0 (c : Dev nD) (r : Fin 8192) (k : Fin 1024) :
    V1 (F := Ideal) m c main_v8 (ix2 r k) = rows3 (m ((c : Thread nD τ).loc main_arg0)) r k := by
  have e : (StableHlo.after hostOps0 (fun b => m (c, b)) (Proc.devRef .tc main_v8) : S8192x1024.Idx → EReal)
      = shapeCast S8192x1024 (m ((c : Thread nD τ).loc main_arg0) : S4x2048x1024.Idx → EReal) shapeCasts_S4x2048x1024_S8192x1024 := by
    show StableHlo.after hostOps0 _ (Proc.devRef .tc main_v8) = _
    after_results
    rfl
  show (StableHlo.after hostOps0 (fun b => m (c, b)) (Proc.devRef .tc main_v8) : S8192x1024.Idx → EReal) (ix2 r k) = _
  rw [e]
  exact flatten_apply _ _ r k

theorem V1_x1 (c : Dev nD) (r : Fin 8192) (k : Fin 1024) :
    V1 (F := Ideal) m c main_v9 (ix2 r k) = rows3 (m ((c : Thread nD τ).loc main_arg1)) r k := by
  have e : (StableHlo.after hostOps0 (fun b => m (c, b)) (Proc.devRef .tc main_v9) : S8192x1024.Idx → EReal)
      = shapeCast S8192x1024 (m ((c : Thread nD τ).loc main_arg1) : S4x2048x1024.Idx → EReal) shapeCasts_S4x2048x1024_S8192x1024 := by
    show StableHlo.after hostOps0 _ (Proc.devRef .tc main_v9) = _
    after_results
    rfl
  show (StableHlo.after hostOps0 (fun b => m (c, b)) (Proc.devRef .tc main_v9) : S8192x1024.Idx → EReal) (ix2 r k) = _
  rw [e]
  exact flatten_apply _ _ r k

theorem V1_x2 (c : Dev nD) (r : Fin 8192) (k : Fin 1024) :
    V1 (F := Ideal) m c main_v10 (ix2 r k) = rows3 (m ((c : Thread nD τ).loc main_arg2)) r k := by
  have e : (StableHlo.after hostOps0 (fun b => m (c, b)) (Proc.devRef .tc main_v10) : S8192x1024.Idx → EReal)
      = shapeCast S8192x1024 (m ((c : Thread nD τ).loc main_arg2) : S4x2048x1024.Idx → EReal) shapeCasts_S4x2048x1024_S8192x1024 := by
    show StableHlo.after hostOps0 _ (Proc.devRef .tc main_v10) = _
    after_results
    rfl
  show (StableHlo.after hostOps0 (fun b => m (c, b)) (Proc.devRef .tc main_v10) : S8192x1024.Idx → EReal) (ix2 r k) = _
  rw [e]
  exact flatten_apply _ _ r k

theorem V1_w0 (c : Dev nD) (k e : Fin 1024) :
    V1 (F := Ideal) m c main_v1 (ix2 k e) = mat2 (m ((c : Thread nD τ).loc main_arg3)) e k := by
  have h : (StableHlo.after hostOps0 (fun b => m (c, b)) (Proc.devRef .tc main_v1) : S1024x1024.Idx → EReal)
      = truncf (F := Ideal) .bf16 (transpose S1024x1024 [1, 0] (m ((c : Thread nD τ).loc main_arg3) : S1024x1024.Idx → EReal)
          transposes_S1024x1024_S1024x1024_1_0) bitsLt_bf16_f32 := by
    show StableHlo.after hostOps0 _ (Proc.devRef .tc main_v1) = _
    after_results
  show (StableHlo.after hostOps0 (fun b => m (c, b)) (Proc.devRef .tc main_v1) : S1024x1024.Idx → EReal) (ix2 k e) = _
  rw [h]
  exact transpose_ix2_apply _ _ k e

theorem V1_w1 (c : Dev nD) (k e : Fin 1024) :
    V1 (F := Ideal) m c main_v3 (ix2 k e) = mat2 (m ((c : Thread nD τ).loc main_arg5)) e k := by
  have h : (StableHlo.after hostOps0 (fun b => m (c, b)) (Proc.devRef .tc main_v3) : S1024x1024.Idx → EReal)
      = truncf (F := Ideal) .bf16 (transpose S1024x1024 [1, 0] (m ((c : Thread nD τ).loc main_arg5) : S1024x1024.Idx → EReal)
          transposes_S1024x1024_S1024x1024_1_0) bitsLt_bf16_f32 := by
    show StableHlo.after hostOps0 _ (Proc.devRef .tc main_v3) = _
    after_results
  show (StableHlo.after hostOps0 (fun b => m (c, b)) (Proc.devRef .tc main_v3) : S1024x1024.Idx → EReal) (ix2 k e) = _
  rw [h]
  exact transpose_ix2_apply _ _ k e

theorem V1_w2 (c : Dev nD) (k e : Fin 1024) :
    V1 (F := Ideal) m c main_v5 (ix2 k e) = mat2 (m ((c : Thread nD τ).loc main_arg7)) e k := by
  have h : (StableHlo.after hostOps0 (fun b => m (c, b)) (Proc.devRef .tc main_v5) : S1024x1024.Idx → EReal)
      = truncf (F := Ideal) .bf16 (transpose S1024x1024 [1, 0] (m ((c : Thread nD τ).loc main_arg7) : S1024x1024.Idx → EReal)
          transposes_S1024x1024_S1024x1024_1_0) bitsLt_bf16_f32 := by
    show StableHlo.after hostOps0 _ (Proc.devRef .tc main_v5) = _
    after_results
  show (StableHlo.after hostOps0 (fun b => m (c, b)) (Proc.devRef .tc main_v5) : S1024x1024.Idx → EReal) (ix2 k e) = _
  rw [h]
  exact transpose_ix2_apply _ _ k e

theorem V1_w3 (c : Dev nD) (k e : Fin 1024) :
    V1 (F := Ideal) m c main_v7 (ix2 k e) = mat2 (m ((c : Thread nD τ).loc main_arg9)) e k := by
  have h : (StableHlo.after hostOps0 (fun b => m (c, b)) (Proc.devRef .tc main_v7) : S1024x1024.Idx → EReal)
      = truncf (F := Ideal) .bf16 (transpose S1024x1024 [1, 0] (m ((c : Thread nD τ).loc main_arg9) : S1024x1024.Idx → EReal)
          transposes_S1024x1024_S1024x1024_1_0) bitsLt_bf16_f32 := by
    show StableHlo.after hostOps0 _ (Proc.devRef .tc main_v7) = _
    after_results
  show (StableHlo.after hostOps0 (fun b => m (c, b)) (Proc.devRef .tc main_v7) : S1024x1024.Idx → EReal) (ix2 k e) = _
  rw [h]
  exact transpose_ix2_apply _ _ k e

theorem V1_b0 (c : Dev nD) (e : Fin 1024) :
    V1 (F := Ideal) m c main_arg4 (ix1 e) = vec1 (m ((c : Thread nD τ).loc main_arg4)) e := by
  have h : (StableHlo.after hostOps0 (fun b => m (c, b)) (Proc.devRef .tc main_arg4) : S1024.Idx → EReal)
      = (m ((c : Thread nD τ).loc main_arg4) : S1024.Idx → EReal) := by
    show StableHlo.after hostOps0 _ (Proc.devRef .tc main_arg4) = _
    after_results
  show (StableHlo.after hostOps0 (fun b => m (c, b)) (Proc.devRef .tc main_arg4) : S1024.Idx → EReal) (ix1 e) = _
  rw [h]
  rfl

theorem V1_b1 (c : Dev nD) (e : Fin 1024) :
    V1 (F := Ideal) m c main_arg6 (ix1 e) = vec1 (m ((c : Thread nD τ).loc main_arg6)) e := by
  have h : (StableHlo.after hostOps0 (fun b => m (c, b)) (Proc.devRef .tc main_arg6) : S1024.Idx → EReal)
      = (m ((c : Thread nD τ).loc main_arg6) : S1024.Idx → EReal) := by
    show StableHlo.after hostOps0 _ (Proc.devRef .tc main_arg6) = _
    after_results
  show (StableHlo.after hostOps0 (fun b => m (c, b)) (Proc.devRef .tc main_arg6) : S1024.Idx → EReal) (ix1 e) = _
  rw [h]
  rfl

theorem V1_b2 (c : Dev nD) (e : Fin 1024) :
    V1 (F := Ideal) m c main_arg8 (ix1 e) = vec1 (m ((c : Thread nD τ).loc main_arg8)) e := by
  have h : (StableHlo.after hostOps0 (fun b => m (c, b)) (Proc.devRef .tc main_arg8) : S1024.Idx → EReal)
      = (m ((c : Thread nD τ).loc main_arg8) : S1024.Idx → EReal) := by
    show StableHlo.after hostOps0 _ (Proc.devRef .tc main_arg8) = _
    after_results
  show (StableHlo.after hostOps0 (fun b => m (c, b)) (Proc.devRef .tc main_arg8) : S1024.Idx → EReal) (ix1 e) = _
  rw [h]
  rfl

theorem W7_out (c : Dev nD) (b : Fin 4) (s : Fin 2048) (d : Fin 1024) :
    W7 (F := Ideal) m c (Proc.devRef .tc main_v16) (ix3 b s d)
      = W6 (F := Ideal) m c (Proc.devRef .tc main_v15) (ix2 (rowAt b s) d) := by
  show (StableHlo.after hostOps5 (W6 (F := Ideal) m c) (Proc.devRef .tc main_v16) : S4x2048x1024.Idx → EReal) (ix3 b s d) = _
  generalize W6 (F := Ideal) m c = U
  have h : (StableHlo.after hostOps5 U (Proc.devRef .tc main_v16) : S4x2048x1024.Idx → EReal)
      = shapeCast S4x2048x1024 (U (Proc.devRef .tc main_v15) : S8192x1024.Idx → EReal) shapeCasts_S8192x1024_S4x2048x1024 := by
    show StableHlo.after hostOps5 _ (Proc.devRef .tc main_v16) = _
    after_results
    rfl
  rw [h]
  exact unflatten_apply _ _ b s d

end Cert.KVal

end
-- ==== Proof.Val.LinSpec.lean ====
import Idealize.ShloMosaic.Lib.ValueIdx
import Idealize.ShloMosaic.PureOps.Ideal.Laws

noncomputable section

namespace Cert.LinVal

open Idealize.ShloMosaic Idealize.ShloMosaic.ValueIdx

theorem hz2 : (![0, 0] : Fin 2 → Nat) = fun _ => 0 := funext fun a => by fin_cases a <;> rfl

theorem hz1 : (![0] : Fin 1 → Nat) = fun _ => 0 := funext fun a => by fin_cases a; rfl

def linB (X : (⟨2, ![8192, 1024]⟩ : Shape).Idx → EReal) (W : (⟨2, ![1024, 1024]⟩ : Shape).Idx → EReal)
    (B : (⟨1, ![1024]⟩ : Shape).Idx → EReal) : (⟨2, ![8192, 1024]⟩ : Shape).Idx → EReal :=
  fun i => (∑ k : Fin 1024, X (ix2 ⟨(i 0).val, idx2_lt0 i⟩ k) * W (ix2 k ⟨(i 1).val, idx2_lt1 i⟩)) + B (ix1 ⟨(i 1).val, idx2_lt1 i⟩)

theorem linB_apply (X W B) (r : Fin 8192) (e : Fin 1024) :
    linB X W B (ix2 r e) = (∑ k : Fin 1024, X (ix2 r k) * W (ix2 k e)) + B (ix1 e) := rfl

def linN (X : (⟨2, ![8192, 1024]⟩ : Shape).Idx → EReal) (W : (⟨2, ![1024, 1024]⟩ : Shape).Idx → EReal) :
    (⟨2, ![8192, 1024]⟩ : Shape).Idx → EReal :=
  fun i => ∑ k : Fin 1024, X (ix2 ⟨(i 0).val, idx2_lt0 i⟩ k) * W (ix2 k ⟨(i 1).val, idx2_lt1 i⟩)

theorem linN_apply (X W) (r : Fin 8192) (d : Fin 1024) :
    linN X W (ix2 r d) = ∑ k : Fin 1024, X (ix2 r k) * W (ix2 k d) := rfl

end Cert.LinVal

end
-- ==== Proof.Val.LinPay.lean ====
import proofs.«401353_j50216757624952_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LinVal

open Cert.KernelIdeal Cert.KernelIdeal.Gen Idealize.ShloMosaic Idealize.ShloMosaic.ValueIdx

theorem lhs_lin_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_lin_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_lin_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_lin_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem matmul_lin_apply {φ₁ φ₂ : FTy} (a : FVec Ideal S1024x1024 φ₁) (b : FVec Ideal S1024x1024 φ₂) (p q : Fin 1024) :
    FloatOps.matmul dot_S1024x1024_S1024x1024_S1024x1024_1_0_0_1_n_n none a b (constant (F := Ideal) S1024x1024 .f32 0x00000000#32) (ix2 p q)
      = ∑ k : Fin 1024, a (ix2 p k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_lin_0 _ _
    | ⟨1, _⟩ => exact (lhs_lin_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_lin_0 _ _).trans hk
    | ⟨1, _⟩ => exact rhs_lin_1 _ _)
  rw [el, er]

theorem k0_pay1_apply (x : Vec Ideal S1024x1024 .f32) (w : Vec Ideal S1024x1024 .bf16) (b : Vec Ideal S1024 .f32) (p q : Fin 1024) :
    k0_pay1 x w b (ix2 p q) = (∑ k : Fin 1024, x (ix2 p k) * w (ix2 k q)) + b (ix1 q) := by
  unfold k0_pay1
  rw [truncf_apply, addf_apply, shapeCast_self, shapeCast_self]
  refine congrArg₂ (· + ·) ?_ ?_
  ·
    exact matmul_lin_apply (truncf .bf16 x bitsLt_bf16_f32) w p q
  ·
    exact (broadcastTo_1b_ab_apply _ _ p q).trans (shapeCast_a_1a_apply b _ 0 q)

theorem k1_pay1_eq : @k1_pay1 = @k0_pay1 := rfl
theorem k2_pay1_eq : @k2_pay1 = @k0_pay1 := rfl

theorem k1_pay1_apply (x : Vec Ideal S1024x1024 .f32) (w : Vec Ideal S1024x1024 .bf16) (b : Vec Ideal S1024 .f32) (p q : Fin 1024) :
    k1_pay1 x w b (ix2 p q) = (∑ k : Fin 1024, x (ix2 p k) * w (ix2 k q)) + b (ix1 q) :=
  k0_pay1_apply x w b p q
theorem k2_pay1_apply (x : Vec Ideal S1024x1024 .f32) (w : Vec Ideal S1024x1024 .bf16) (b : Vec Ideal S1024 .f32) (p q : Fin 1024) :
    k2_pay1 x w b (ix2 p q) = (∑ k : Fin 1024, x (ix2 p k) * w (ix2 k q)) + b (ix1 q) :=
  k0_pay1_apply x w b p q

theorem k4_pay1_apply (x : Vec Ideal S1024x1024 .bf16) (w : Vec Ideal S1024x1024 .bf16) (p q : Fin 1024) :
    k4_pay1 x w (ix2 p q) = ∑ k : Fin 1024, x (ix2 p k) * w (ix2 k q) := by
  unfold k4_pay1
  rw [shapeCast_self, shapeCast_self]
  exact matmul_lin_apply x w p q

end Cert.LinVal

end
-- ==== Proof.Val.LinArr0.lean ====
import proofs.«401353_j50216757624952_3_alg».proof.Proof.KI.Lin0
import proofs.«401353_j50216757624952_3_alg».proof.Proof.Val.LinSpec
import proofs.«401353_j50216757624952_3_alg».proof.Proof.Val.LinPay
set_option maxRecDepth 16384

noncomputable section

namespace Cert.LinVal

open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem lt_N0 (t : Fin cfg0.N) : t.val < 8 := lt_of_lt_of_eq t.isLt N_0

theorem iblk0_0_apply (c : Dev nD) (t : Fin cfg0.N) (p k : Fin 1024) (h : t.val * 1024 + p.val < 8192) :
    (iblk0 V c 0 t : Vec Ideal S1024x1024 .f32) (ix2 p k) = V c main_v8 (ix2 ⟨t.val * 1024 + p.val, h⟩ k) := by
  obtain ⟨e0, e1, -⟩ := idx_facts0 t
  show V c main_v8 (((cfg0.win 0).blk t).view.emb (ix2 p k)) = _
  refine congrArg (V c main_v8) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

theorem iblk0_1_apply (c : Dev nD) (t : Fin cfg0.N) (k q : Fin 1024) :
    (iblk0 V c 1 t : Vec Ideal S1024x1024 .bf16) (ix2 k q) = V c main_v1 (ix2 k q) := by
  obtain ⟨-, -, e2, e3, -⟩ := idx_facts0 t
  show V c main_v1 (((cfg0.win 1).blk t).view.emb (ix2 k q)) = _
  refine congrArg (V c main_v1) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

theorem iblk0_2_apply (c : Dev nD) (t : Fin cfg0.N) (q : Fin 1024) :
    (iblk0 V c 2 t : Vec Ideal S1024 .f32) (ix1 q) = V c main_arg4 (ix1 q) := by
  obtain ⟨-, -, -, -, e4, -⟩ := idx_facts0 t
  show V c main_arg4 (((cfg0.win 2).blk t).view.emb (ix1 q)) = _
  refine congrArg (V c main_arg4) (funext fun a => Fin.ext ?_)
  match a with
  | ⟨0, _⟩ => show win0_2.index t (0 : Fin 1) * 1024 + 1 * q.val = q.val; omega

theorem flushed0_eq (c : Dev nD) (t : Fin cfg0.N) :
    (dat0 (F := Ideal) V c).flushed 3 t = ((cfg0.win 3).blk t).view.read (Elt Ideal) (linB (V c main_v8) (V c main_v1) (V c main_arg4)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024) hz1]
  obtain ⟨-, -, -, -, -, e5, e6⟩ := idx_facts0 t
  have ht := lt_N0 t
  funext j
  obtain ⟨p, q, rfl⟩ : ∃ (p : Fin 1024) (q : Fin 1024), j = ix2 p q := ⟨j 0, j 1, eq_ix2 j⟩
  have hp := p.isLt
  have hemb : ((cfg0.win 3).blk t).view.emb (ix2 p q) = ix2 (⟨t.val * 1024 + p.val, by omega⟩ : Fin 8192) q :=
    funext fun a => Fin.ext (by
      match a with
      | ⟨0, _⟩ => show win0_3.index t (0 : Fin 2) * 1024 + 1 * p.val = t.val * 1024 + p.val; omega
      | ⟨1, _⟩ => show win0_3.index t (1 : Fin 2) * 1024 + 1 * q.val = q.val; omega)
  show k0_pay1 (iblk0 V c 0 t) (iblk0 V c 1 t) (iblk0 V c 2 t) (ix2 p q)
    = linB (V c main_v8) (V c main_v1) (V c main_arg4) (((cfg0.win 3).blk t).view.emb (ix2 p q))
  rw [hemb, linB_apply, k0_pay1_apply]
  refine congrArg₂ (· + ·) (Finset.sum_congr rfl fun k _ => ?_) (iblk0_2_apply V c t q)
  exact congrArg₂ (· * ·) (iblk0_0_apply V c t p k _) (iblk0_1_apply V c t k q)

theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v11).slice (win0_3.rect t)).set ↔ _
  rw [View.set_slice_whole, Rect.mem_set_unit]
  exact Iff.rfl

theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  let t : Fin cfg0.N := ⟨(i 0).val / 1024, lt_of_lt_of_eq (b := 8) (by omega) N_0.symm⟩
  obtain ⟨-, -, -, -, -, e5, e6⟩ := idx_facts0 t
  have htv : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem final0 (c : Dev nD) : (dat0 (F := Ideal) V c).arrAt 3 cfg0.N = linB (V c main_v8) (V c main_v1) (V c main_arg4) :=
  (dat0 V c).arrAt_eq_of_cover 3 _ (fun t _ => flushed0_eq V c t) cover0

theorem arr0_apply (c : Dev nD) (r : Fin 8192) (e : Fin 1024) :
    (dat0 (F := Ideal) V c).arrAt 3 cfg0.N (ix2 r e)
      = HAdd.hAdd (α := EReal) (β := EReal) (γ := EReal)
          (∑ k : Fin 1024, HMul.hMul (α := EReal) (β := EReal) (γ := EReal) (V c main_v8 (ix2 r k)) (V c main_v1 (ix2 k e)))
          (V c main_arg4 (ix1 e)) := by
  rw [final0]; rfl

end Cert.LinVal

end
-- ==== Proof.Val.LinArr1.lean ====
import proofs.«401353_j50216757624952_3_alg».proof.Proof.KI.Lin1
import proofs.«401353_j50216757624952_3_alg».proof.Proof.Val.LinSpec
import proofs.«401353_j50216757624952_3_alg».proof.Proof.Val.LinPay
set_option maxRecDepth 16384

noncomputable section

namespace Cert.LinVal

open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem lt_N1 (t : Fin cfg1.N) : t.val < 8 := lt_of_lt_of_eq t.isLt N_1

theorem iblk1_0_apply (c : Dev nD) (t : Fin cfg1.N) (p k : Fin 1024) (h : t.val * 1024 + p.val < 8192) :
    (iblk1 V c 0 t : Vec Ideal S1024x1024 .f32) (ix2 p k) = V c main_v9 (ix2 ⟨t.val * 1024 + p.val, h⟩ k) := by
  obtain ⟨e0, e1, -⟩ := idx_facts1 t
  show V c main_v9 (((cfg1.win 0).blk t).view.emb (ix2 p k)) = _
  refine congrArg (V c main_v9) (funext fun a => Fin.ext ?_)
  match a with
  | ⟨0, _⟩ => show win1_0.index t (0 : Fin 2) * 1024 + 1 * p.val = t.val * 1024 + p.val; omega
  | ⟨1, _⟩ => show win1_0.index t (1 : Fin 2) * 1024 + 1 * k.val = k.val; omega

theorem iblk1_1_apply (c : Dev nD) (t : Fin cfg1.N) (k q : Fin 1024) :
    (iblk1 V c 1 t : Vec Ideal S1024x1024 .bf16) (ix2 k q) = V c main_v3 (ix2 k q) := by
  obtain ⟨-, -, e2, e3, -⟩ := idx_facts1 t
  show V c main_v3 (((cfg1.win 1).blk t).view.emb (ix2 k q)) = _
  refine congrArg (V c main_v3) (funext fun a => Fin.ext ?_)
  match a with
  | ⟨0, _⟩ => show win1_1.index t (0 : Fin 2) * 1024 + 1 * k.val = k.val; omega
  | ⟨1, _⟩ => show win1_1.index t (1 : Fin 2) * 1024 + 1 * q.val = q.val; omega

theorem iblk1_2_apply (c : Dev nD) (t : Fin cfg1.N) (q : Fin 1024) :
    (iblk1 V c 2 t : Vec Ideal S1024 .f32) (ix1 q) = V c main_arg6 (ix1 q) := by
  obtain ⟨-, -, -, -, e4, -⟩ := idx_facts1 t
  show V c main_arg6 (((cfg1.win 2).blk t).view.emb (ix1 q)) = _
  refine congrArg (V c main_arg6) (funext fun a => Fin.ext ?_)
  match a with
  | ⟨0, _⟩ => show win1_2.index t (0 : Fin 1) * 1024 + 1 * q.val = q.val; omega

theorem flushed1_eq (c : Dev nD) (t : Fin cfg1.N) :
    (dat1 (F := Ideal) V c).flushed 3 t = ((cfg1.win 3).blk t).view.read (Elt Ideal) (linB (V c main_v9) (V c main_v3) (V c main_arg6)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1024) hz1]
  obtain ⟨-, -, -, -, -, e5, e6⟩ := idx_facts1 t
  have ht := lt_N1 t
  funext j
  obtain ⟨p, q, rfl⟩ : ∃ (p : Fin 1024) (q : Fin 1024), j = ix2 p q := ⟨j 0, j 1, eq_ix2 j⟩
  have hp := p.isLt
  have hemb : ((cfg1.win 3).blk t).view.emb (ix2 p q) = ix2 (⟨t.val * 1024 + p.val, by omega⟩ : Fin 8192) q :=
    funext fun a => Fin.ext (by
      match a with
      | ⟨0, _⟩ => show win1_3.index t (0 : Fin 2) * 1024 + 1 * p.val = t.val * 1024 + p.val; omega
      | ⟨1, _⟩ => show win1_3.index t (1 : Fin 2) * 1024 + 1 * q.val = q.val; omega)
  show k1_pay1 (iblk1 V c 0 t) (iblk1 V c 1 t) (iblk1 V c 2 t) (ix2 p q)
    = linB (V c main_v9) (V c main_v3) (V c main_arg6) (((cfg1.win 3).blk t).view.emb (ix2 p q))
  rw [hemb, linB_apply, k1_pay1_apply]
  refine congrArg₂ (· + ·) (Finset.sum_congr rfl fun k _ => ?_) (iblk1_2_apply V c t q)
  exact congrArg₂ (· * ·) (iblk1_0_apply V c t p k _) (iblk1_1_apply V c t k q)

theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v12).slice (win1_3.rect t)).set ↔ _
  rw [View.set_slice_whole, Rect.mem_set_unit]
  exact Iff.rfl

theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  let t : Fin cfg1.N := ⟨(i 0).val / 1024, lt_of_lt_of_eq (b := 8) (by omega) N_1.symm⟩
  obtain ⟨-, -, -, -, -, e5, e6⟩ := idx_facts1 t
  have htv : t.val = (i 0).val / 1024 := rfl
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

theorem final1 (c : Dev nD) : (dat1 (F := Ideal) V c).arrAt 3 cfg1.N = linB (V c main_v9) (V c main_v3) (V c main_arg6) :=
  (dat1 V c).arrAt_eq_of_cover 3 _ (fun t _ => flushed1_eq V c t) cover1

theorem arr1_apply (c : Dev nD) (r : Fin 8192) (e : Fin 1024) :
    (dat1 (F := Ideal) V c).arrAt 3 cfg1.N (ix2 r e)
      = HAdd.hAdd (α := EReal) (β := EReal) (γ := EReal)
          (∑ k : Fin 1024, HMul.hMul (α := EReal) (β := EReal) (γ := EReal) (V c main_v9 (ix2 r k)) (V c main_v3 (ix2 k e)))
          (V c main_arg6 (ix1 e)) := by
  rw [final1]; rfl

end Cert.LinVal

end
-- ==== Proof.Val.LinArr2.lean ====
import proofs.«401353_j50216757624952_3_alg».proof.Proof.KI.Lin2
import proofs.«401353_j50216757624952_3_alg».proof.Proof.Val.LinSpec
import proofs.«401353_j50216757624952_3_alg».proof.Proof.Val.LinPay
set_option maxRecDepth 16384

noncomputable section

namespace Cert.LinVal

open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem lt_N2 (t : Fin cfg2.N) : t.val < 8 := lt_of_lt_of_eq t.isLt N_2

theorem iblk2_0_apply (c : Dev nD) (t : Fin cfg2.N) (p k : Fin 1024) (h : t.val * 1024 + p.val < 8192) :
    (iblk2 V c 0 t : Vec Ideal S1024x1024 .f32) (ix2 p k) = V c main_v10 (ix2 ⟨t.val * 1024 + p.val, h⟩ k) := by
  obtain ⟨e0, e1, -⟩ := idx_facts2 t
  show V c main_v10 (((cfg2.win 0).blk t).view.emb (ix2 p k)) = _
  refine congrArg (V c main_v10) (funext fun a => Fin.ext ?_)
  match a with
  | ⟨0, _⟩ => show win2_0.index t (0 : Fin 2) * 1024 + 1 * p.val = t.val * 1024 + p.val; omega
  | ⟨1, _⟩ => show win2_0.index t (1 : Fin 2) * 1024 + 1 * k.val = k.val; omega

theorem iblk2_1_apply (c : Dev nD) (t : Fin cfg2.N) (k q : Fin 1024) :
    (iblk2 V c 1 t : Vec Ideal S1024x1024 .bf16) (ix2 k q) = V c main_v5 (ix2 k q) := by
  obtain ⟨-, -, e2, e3, -⟩ := idx_facts2 t
  show V c main_v5 (((cfg2.win 1).blk t).view.emb (ix2 k q)) = _
  refine congrArg (V c main_v5) (funext fun a => Fin.ext ?_)
  match a with
  | ⟨0, _⟩ => show win2_1.index t (0 : Fin 2) * 1024 + 1 * k.val = k.val; omega
  | ⟨1, _⟩ => show win2_1.index t (1 : Fin 2) * 1024 + 1 * q.val = q.val; omega

theorem iblk2_2_apply (c : Dev nD) (t : Fin cfg2.N) (q : Fin 1024) :
    (iblk2 V c 2 t : Vec Ideal S1024 .f32) (ix1 q) = V c main_arg8 (ix1 q) := by
  obtain ⟨-, -, -, -, e4, -⟩ := idx_facts2 t
  show V c main_arg8 (((cfg2.win 2).blk t).view.emb (ix1 q)) = _
  refine congrArg (V c main_arg8) (funext fun a => Fin.ext ?_)
  match a with
  | ⟨0, _⟩ => show win2_2.index t (0 : Fin 1) * 1024 + 1 * q.val = q.val; omega

theorem flushed2_eq (c : Dev nD) (t : Fin cfg2.N) :
    (dat2 (F := Ideal) V c).flushed 3 t = ((cfg2.win 3).blk t).view.read (Elt Ideal) (linB (V c main_v10) (V c main_v5) (V c main_arg8)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1024) hz1]
  obtain ⟨-, -, -, -, -, e5, e6⟩ := idx_facts2 t
  have ht := lt_N2 t
  funext j
  obtain ⟨p, q, rfl⟩ : ∃ (p : Fin 1024) (q : Fin 1024), j = ix2 p q := ⟨j 0, j 1, eq_ix2 j⟩
  have hp := p.isLt
  have hemb : ((cfg2.win 3).blk t).view.emb (ix2 p q) = ix2 (⟨t.val * 1024 + p.val, by omega⟩ : Fin 8192) q :=
    funext fun a => Fin.ext (by
      match a with
      | ⟨0, _⟩ => show win2_3.index t (0 : Fin 2) * 1024 + 1 * p.val = t.val * 1024 + p.val; omega
      | ⟨1, _⟩ => show win2_3.index t (1 : Fin 2) * 1024 + 1 * q.val = q.val; omega)
  show k2_pay1 (iblk2 V c 0 t) (iblk2 V c 1 t) (iblk2 V c 2 t) (ix2 p q)
    = linB (V c main_v10) (V c main_v5) (V c main_arg8) (((cfg2.win 3).blk t).view.emb (ix2 p q))
  rw [hemb, linB_apply, k2_pay1_apply]
  refine congrArg₂ (· + ·) (Finset.sum_congr rfl fun k _ => ?_) (iblk2_2_apply V c t q)
  exact congrArg₂ (· * ·) (iblk2_0_apply V c t p k _) (iblk2_1_apply V c t k q)

theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  let t : Fin cfg2.N := ⟨(i 0).val / 1024, lt_of_lt_of_eq (b := 8) (by omega) N_2.symm⟩
  obtain ⟨-, -, -, -, -, e5, e6⟩ := idx_facts2 t
  have htv : t.val = (i 0).val / 1024 := rfl
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

theorem final2 (c : Dev nD) : (dat2 (F := Ideal) V c).arrAt 3 cfg2.N = linB (V c main_v10) (V c main_v5) (V c main_arg8) :=
  (dat2 V c).arrAt_eq_of_cover 3 _ (fun t _ => flushed2_eq V c t) cover2

theorem arr2_apply (c : Dev nD) (r : Fin 8192) (e : Fin 1024) :
    (dat2 (F := Ideal) V c).arrAt 3 cfg2.N (ix2 r e)
      = HAdd.hAdd (α := EReal) (β := EReal) (γ := EReal)
          (∑ k : Fin 1024, HMul.hMul (α := EReal) (β := EReal) (γ := EReal) (V c main_v10 (ix2 r k)) (V c main_v5 (ix2 k e)))
          (V c main_arg8 (ix1 e)) := by
  rw [final2]; rfl

end Cert.LinVal

end
-- ==== Proof.Val.LinArr4.lean ====
import proofs.«401353_j50216757624952_3_alg».proof.Proof.KI.Lin4
import proofs.«401353_j50216757624952_3_alg».proof.Proof.Val.LinSpec
import proofs.«401353_j50216757624952_3_alg».proof.Proof.Val.LinPay
set_option maxRecDepth 16384

noncomputable section

namespace Cert.LinVal

open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt_N4 (t : Fin cfg4.N) : t.val < 8 := lt_of_lt_of_eq t.isLt N_4

theorem iblk4_0_apply (c : Dev nD) (t : Fin cfg4.N) (p k : Fin 1024) (h : t.val * 1024 + p.val < 8192) :
    (iblk4 V c 0 t : Vec Ideal S1024x1024 .bf16) (ix2 p k) = V c main_v14 (ix2 ⟨t.val * 1024 + p.val, h⟩ k) := by
  obtain ⟨e0, e1, -⟩ := idx_facts4 t
  show V c main_v14 (((cfg4.win 0).blk t).view.emb (ix2 p k)) = _
  refine congrArg (V c main_v14) (funext fun a => Fin.ext ?_)
  match a with
  | ⟨0, _⟩ => show win4_0.index t (0 : Fin 2) * 1024 + 1 * p.val = t.val * 1024 + p.val; omega
  | ⟨1, _⟩ => show win4_0.index t (1 : Fin 2) * 1024 + 1 * k.val = k.val; omega

theorem iblk4_1_apply (c : Dev nD) (t : Fin cfg4.N) (k q : Fin 1024) :
    (iblk4 V c 1 t : Vec Ideal S1024x1024 .bf16) (ix2 k q) = V c main_v7 (ix2 k q) := by
  obtain ⟨-, -, e2, e3, -⟩ := idx_facts4 t
  show V c main_v7 (((cfg4.win 1).blk t).view.emb (ix2 k q)) = _
  refine congrArg (V c main_v7) (funext fun a => Fin.ext ?_)
  match a with
  | ⟨0, _⟩ => show win4_1.index t (0 : Fin 2) * 1024 + 1 * k.val = k.val; omega
  | ⟨1, _⟩ => show win4_1.index t (1 : Fin 2) * 1024 + 1 * q.val = q.val; omega

theorem flushed4_eq (c : Dev nD) (t : Fin cfg4.N) :
    (dat4 (F := Ideal) V c).flushed 2 t = ((cfg4.win 2).blk t).view.read (Elt Ideal) (linN (V c main_v14) (V c main_v7)) := by
  show (cfg4.win 2).cut (grid4.coords t) ((dat4 V c).after 2 t) = _
  rw [after4_2]
  unfold out4_2
  rw [View.canon_unit_zero hz2]
  simp only [View.ld_unit_zero (S := S1024x1024) hz2]
  obtain ⟨-, -, -, -, e4, e5⟩ := idx_facts4 t
  have ht := lt_N4 t
  funext j
  obtain ⟨p, q, rfl⟩ : ∃ (p : Fin 1024) (q : Fin 1024), j = ix2 p q := ⟨j 0, j 1, eq_ix2 j⟩
  have hp := p.isLt
  have hemb : ((cfg4.win 2).blk t).view.emb (ix2 p q) = ix2 (⟨t.val * 1024 + p.val, by omega⟩ : Fin 8192) q :=
    funext fun a => Fin.ext (by
      match a with
      | ⟨0, _⟩ => show win4_2.index t (0 : Fin 2) * 1024 + 1 * p.val = t.val * 1024 + p.val; omega
      | ⟨1, _⟩ => show win4_2.index t (1 : Fin 2) * 1024 + 1 * q.val = q.val; omega)
  show k4_pay1 (iblk4 V c 0 t) (iblk4 V c 1 t) (ix2 p q)
    = linN (V c main_v14) (V c main_v7) (((cfg4.win 2).blk t).view.emb (ix2 p q))
  rw [hemb, linN_apply, k4_pay1_apply]
  refine Finset.sum_congr rfl fun k _ => ?_
  exact congrArg₂ (· * ·) (iblk4_0_apply V c t p k _) (iblk4_1_apply V c t k q)

theorem mem_blk4 (t : Fin cfg4.N) (i : S8192x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v15).slice (win4_2.rect t)).set ↔ _
  rw [View.set_slice_whole, Rect.mem_set_unit]
  exact Iff.rfl

theorem cover4 (i : S8192x1024.Idx) : ∃ t : Fin cfg4.N, (cfg4.win 2).flush t = true ∧ i ∈ ((cfg4.win 2).blk t).view.set := by
  have hi0 : (i 0).val < 8192 := (i 0).isLt
  have hi1 : (i 1).val < 1024 := (i 1).isLt
  let t : Fin cfg4.N := ⟨(i 0).val / 1024, lt_of_lt_of_eq (b := 8) (by omega) N_4.symm⟩
  obtain ⟨-, -, -, -, e4, e5⟩ := idx_facts4 t
  have htv : t.val = (i 0).val / 1024 := rfl
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

theorem final4 (c : Dev nD) : (dat4 (F := Ideal) V c).arrAt 2 cfg4.N = linN (V c main_v14) (V c main_v7) :=
  (dat4 V c).arrAt_eq_of_cover 2 _ (fun t _ => flushed4_eq V c t) cover4

theorem arr4_apply (c : Dev nD) (r : Fin 8192) (d : Fin 1024) :
    (dat4 (F := Ideal) V c).arrAt 2 cfg4.N (ix2 r d)
      = ∑ e : Fin 1024, HMul.hMul (α := EReal) (β := EReal) (γ := EReal) (V c main_v14 (ix2 r e)) (V c main_v7 (ix2 e d)) := by
  rw [final4]; rfl

end Cert.LinVal

end
-- ==== Proof.Val.LinArr.lean ====
import proofs.«401353_j50216757624952_3_alg».proof.Proof.Val.LinArr0
import proofs.«401353_j50216757624952_3_alg».proof.Proof.Val.LinArr1
import proofs.«401353_j50216757624952_3_alg».proof.Proof.Val.LinArr2
import proofs.«401353_j50216757624952_3_alg».proof.Proof.Val.LinArr4
-- ==== Proof.Alg.RealClosed.lean ====
import Mathlib.Data.EReal.Basic
import Mathlib.Data.EReal.Operations
import proofs.«401353_j50216757624952_3_alg».proof.Proof.Alg.Spec

noncomputable section

namespace Cert.Spec

open Idealize.ShloMosaic
open scoped BigOperators

theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem real_add (x y : EReal) (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sum_mul {n : ℕ} (a b : Fin n → EReal) (ha : ∀ k, ∃ r : ℝ, a k = r) (hb : ∀ k, ∃ r : ℝ, b k = r) :
    ∃ r : ℝ, (∑ k, a k * b k) = r := by
  choose a' ha' using ha
  choose b' hb' using hb
  refine ⟨∑ k, a' k * b' k, ?_⟩
  rw [coe_sum]
  refine Finset.sum_congr rfl fun k _ => ?_
  rw [ha', hb', EReal.coe_mul]

theorem ofBits_eighth : Ideal.ofBits .bf16 0x3E00#16 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

end Cert.Spec

end
-- ==== Proof.Val.AttnPay.lean ====
import proofs.«401353_j50216757624952_3_alg».proof.Proof.KI.AttnSpec
import proofs.«401353_j50216757624952_3_alg».proof.Proof.Alg.RealClosed
import Idealize.ShloMosaic.Lib.ValueIdx
import Idealize.ShloMosaic.Lib.ValueLayout
import Idealize.ShloMosaic.Lib.Pipeline.Value

noncomputable section

namespace Cert.AttnVal

open Idealize.ShloMosaic Idealize.ShloMosaic.ValueIdx Cert.KernelIdeal Cert.KernelIdeal.Gen Cert.KernelIdeal.Hand Cert.Spec
open scoped BigOperators

theorem col_of_vec {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem bcast_col_1024 {α : Type} (x : S1024x1.Idx → α) (h : S1024x1.Broadcasts S1024x1024) (p : Fin 1024) (k : Fin 1024) :
    broadcastTo S1024x1024 x h (ix2 p k) = x (ix2 p (0 : Fin 1)) := by
  refine broadcastTo_apply x h (ix2 p k) (ix2 p (0 : Fin 1)) fun ax => ?_
  match ax with
  | ⟨0, _⟩ => rfl
  | ⟨1, _⟩ => rfl

theorem bcast_col_64 {α : Type} (x : S1024x1.Idx → α) (h : S1024x1.Broadcasts S1024x64) (p : Fin 1024) (d : Fin 64) :
    broadcastTo S1024x64 x h (ix2 p d) = x (ix2 p (0 : Fin 1)) := by
  refine broadcastTo_apply x h (ix2 p d) (ix2 p (0 : Fin 1)) fun ax => ?_
  match ax with
  | ⟨0, _⟩ => rfl
  | ⟨1, _⟩ => rfl

theorem slice_lo {α : Type} (x : S1024x128.Idx → α) (h : S1024x128.Slices ![0, 0] S1024x64) (p : Fin 1024) (d : Fin 64) :
    extractStridedSlice S1024x64 ![0, 0] x h (ix2 p d) = x (ix2 p (⟨d.val, by omega⟩ : Fin 128)) :=
  slice2_axis1_apply 0 x h p d _ (Nat.zero_add _).symm

theorem slice_hi {α : Type} (x : S1024x128.Idx → α) (h : S1024x128.Slices ![0, 64] S1024x64) (p : Fin 1024) (d : Fin 64) :
    extractStridedSlice S1024x64 ![0, 64] x h (ix2 p d) = x (ix2 p (⟨64 + d.val, by omega⟩ : Fin 128)) :=
  slice2_axis1_apply 64 x h p d _ rfl

theorem ofBits_neg_inf : Ideal.ofBits .f32 0xFF800000#32 = (⊥ : EReal) := by
  simp [Ideal.ofBits, Ideal.ieee]

theorem lift_row (h : S1024x1024.Reduces [1] S1024) (p k : Fin 1024) : h.lift (ix1 p) k = ix2 p k := by
  funext a
  match a with
  | ⟨0, _⟩ => exact Fin.ext rfl
  | ⟨1, _⟩ => exact Fin.ext rfl

theorem rowmax_apply (X : FVec Ideal S1024x1024 .f32) (h : S1024x1024.Reduces [1] S1024) (hφ : FKind.Formats .f32)
    (hacc : (0xFF800000#32 : BitVec FTy.f32.bits) = FKind.maximumf.neutral .f32 hφ) (p : Fin 1024) :
    multiReduction (F := Ideal) .maximumf [1] S1024 X 0xFF800000#32 h hφ hacc (ix1 p)
      = rowMax (fun k : Fin 1024 => X (ix2 p k)) := by
  refine (Ideal.multiReduction_maximumf_single X _ h hφ hacc (ix1 p)).trans ?_
  have hf : (fun k : Fin 1024 => X (h.lift (ix1 p) k)) = fun k => X (ix2 p k) :=
    funext fun k => congrArg X (lift_row h p k)
  exact (congrArg (fun g : Fin 1024 → EReal =>
      (Finset.univ : Finset (Fin 1024)).fold max (Ideal.ofBits .f32 0xFF800000#32) g) hf).trans
    (congrArg (fun b : EReal => (Finset.univ : Finset (Fin 1024)).fold max b (fun k => X (ix2 p k))) ofBits_neg_inf)

theorem rowsum_apply (X : FVec Ideal S1024x1024 .f32) (h : S1024x1024.Reduces [1] S1024) (hφ : FKind.Formats .f32)
    (hacc : (0x00000000#32 : BitVec FTy.f32.bits) = FKind.add.neutral .f32 hφ) (p : Fin 1024) :
    multiReduction (F := Ideal) .add [1] S1024 X 0x00000000#32 h hφ hacc (ix1 p) = ∑ k : Fin 1024, X (ix2 p k) := by
  refine (Ideal.multiReduction_add_single X _ h hφ hacc (ix1 p)).trans ?_
  show ∑ k : Fin 1024, X (h.lift (ix1 p) k) = _
  exact Finset.sum_congr rfl fun k _ => congrArg X (lift_row h p k)

theorem lhs_qk_0 (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_qk_1 (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c
theorem rhs_qk_0 (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_qk_1 (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

theorem qk_apply (A B : FVec Ideal S1024x64 .bf16) (p k : Fin 1024) :
    matmul dot_S1024x64_S1024x64_S1024x1024_1_1_0_0_n_n none A B (constant (F := Ideal) S1024x1024 .f32 0x00000000#32) (ix2 p k)
      = ∑ j : Fin 64, A (ix2 p j) * B (ix2 k j) := by
  refine (Ideal.matmul_constant_zero_apply dot_S1024x64_S1024x64_S1024x1024_1_1_0_0_n_n none A B (ix2 p k)).trans ?_
  rw [← Equiv.sum_comp (contrEquiv1 dot_S1024x64_S1024x64_S1024x1024_1_1_0_0_n_n 64 rfl rfl).symm]
  refine Finset.sum_congr rfl fun j _ => ?_
  have hj := contrEquiv1_symm_val dot_S1024x64_S1024x64_S1024x1024_1_1_0_0_n_n 64 rfl rfl j
  have el : dot_S1024x64_S1024x64_S1024x1024_1_1_0_0_n_n.lhsIdx (ix2 p k) ((contrEquiv1 dot_S1024x64_S1024x64_S1024x1024_1_1_0_0_n_n 64 rfl rfl).symm j) = ix2 p j := funext fun a => Fin.ext (by
    match a with
    | ⟨0, _⟩ => exact lhs_qk_0 _ _
    | ⟨1, _⟩ => exact (lhs_qk_1 _ _).trans hj)
  have er : dot_S1024x64_S1024x64_S1024x1024_1_1_0_0_n_n.rhsIdx (ix2 p k) ((contrEquiv1 dot_S1024x64_S1024x64_S1024x1024_1_1_0_0_n_n 64 rfl rfl).symm j) = ix2 k j := funext fun a => Fin.ext (by
    match a with
    | ⟨0, _⟩ => exact rhs_qk_0 _ _
    | ⟨1, _⟩ => exact (rhs_qk_1 _ _).trans hj)
  rw [el, er]

theorem lhs_pv_0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem rhs_pv_0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem rhs_pv_1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem pv_apply (E : FVec Ideal S1024x1024 .bf16) (V : FVec Ideal S1024x64 .bf16) (p : Fin 1024) (d : Fin 64) :
    matmul dot_S1024x1024_S1024x64_S1024x64_1_0_0_1_n_n none E V (constant (F := Ideal) S1024x64 .f32 0x00000000#32) (ix2 p d)
      = ∑ k : Fin 1024, E (ix2 p k) * V (ix2 k d) := by
  refine (Ideal.matmul_constant_zero_apply dot_S1024x1024_S1024x64_S1024x64_1_0_0_1_n_n none E V (ix2 p d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p d) ((contrEquiv1 dot_S1024x1024_S1024x64_S1024x64_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 p d) ((contrEquiv1 dot_S1024x1024_S1024x64_S1024x64_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

abbrev c0 (j : Fin 64) : Fin 128 := ⟨j.val, by omega⟩

abbrev c1 (j : Fin 64) : Fin 128 := ⟨64 + j.val, by omega⟩

def sc0 (q k : Vec Ideal S1024x128 .bf16) (p : Fin 1024) : Fin 1024 → EReal := fun kk =>
  kscore (Ideal.ofBits .bf16 0x3E00#16) (fun j => q (ix2 p (c0 j))) (fun j => k (ix2 kk (c0 j)))

def sc1 (q k : Vec Ideal S1024x128 .bf16) (p : Fin 1024) : Fin 1024 → EReal := fun kk =>
  kscore (Ideal.ofBits .bf16 0x3E00#16) (fun j => q (ix2 p (c1 j))) (fun j => k (ix2 kk (c1 j)))

theorem pay17_apply (q k : Vec Ideal S1024x128 .bf16) (p kk : Fin 1024) :
    k3_pay17 (F := Ideal) q k (ix2 p kk) = sc0 q k p kk := by
  unfold k3_pay17 k3_pay10 k3_pay11
  refine (qk_apply _ _ p kk).trans ?_
  unfold sc0 kscore
  refine Finset.sum_congr rfl fun j _ => ?_
  show (extractStridedSlice S1024x64 ![0, 0] (shapeCast S1024x128 q _) _ (ix2 p j) * Ideal.ofBits .bf16 0x3E00#16)
      * extractStridedSlice S1024x64 ![0, 0] (shapeCast S1024x128 k _) _ (ix2 kk j) = _
  rw [shapeCast_self, shapeCast_self, slice_lo, slice_lo]

theorem pay18_apply (q k : Vec Ideal S1024x128 .bf16) (m : Vec Ideal S1024x1 .f32) (p : Fin 1024) (u : Fin 1) :
    k3_pay18 (F := Ideal) q k m (ix2 p u) = mNew (m (ix2 p u)) (sc0 q k p) := by
  have e : k3_pay18 (F := Ideal) q k m = maximumf m (shapeCast S1024x1 (multiReduction (F := Ideal) .maximumf [1] S1024
      (k3_pay17 (F := Ideal) q k) 0xFF800000#32 reduces_S1024x1024_S1024 (.inl rfl) rfl) shapeCasts_S1024_S1024x1) := rfl
  rw [e, maximumf_apply, col_of_vec]
  refine (congrArg (max (m (ix2 p u))) (rowmax_apply _ _ _ _ p)).trans ?_
  unfold mNew
  simp only [pay17_apply]

theorem pay19_apply (q k : Vec Ideal S1024x128 .bf16) (m m' : Vec Ideal S1024x1 .f32) (p : Fin 1024) (u : Fin 1) :
    k3_pay19 (F := Ideal) q k m m' (ix2 p u) = Ideal.exp (m' (ix2 p u) - k3_pay18 (F := Ideal) q k m (ix2 p u)) := by
  have e : k3_pay19 (F := Ideal) q k m m' = exp (subf m' (k3_pay18 (F := Ideal) q k m)) := rfl
  rw [e]
  rfl

theorem pay20_apply (q k : Vec Ideal S1024x128 .bf16) (m : Vec Ideal S1024x1 .f32) (p kk : Fin 1024) :
    k3_pay20 (F := Ideal) q k m (ix2 p kk)
      = Ideal.exp (sc0 q k p kk - mNew (m (ix2 p 0)) (sc0 q k p)) := by
  have e : k3_pay20 (F := Ideal) q k m = exp (subf (k3_pay17 (F := Ideal) q k)
      (broadcastTo S1024x1024 (k3_pay18 (F := Ideal) q k m) broadcasts_S1024x1_S1024x1024)) := rfl
  rw [e]
  show Ideal.exp (k3_pay17 (F := Ideal) q k (ix2 p kk)
      - broadcastTo S1024x1024 (k3_pay18 (F := Ideal) q k m) broadcasts_S1024x1_S1024x1024 (ix2 p kk)) = _
  rw [bcast_col_1024, pay17_apply, pay18_apply]

theorem pay21_apply (q k : Vec Ideal S1024x128 .bf16) (m l : Vec Ideal S1024x1 .f32) (p : Fin 1024) :
    k3_pay21 (F := Ideal) q k m m l (ix2 p 0) = lNew (m (ix2 p 0)) (l (ix2 p 0)) (sc0 q k p) := by
  have e : k3_pay21 (F := Ideal) q k m m l = addf (mulf (k3_pay19 (F := Ideal) q k m m) l)
      (shapeCast S1024x1 (multiReduction (F := Ideal) .add [1] S1024 (k3_pay20 (F := Ideal) q k m) 0x00000000#32
        reduces_S1024x1024_S1024 (.inl rfl) rfl) shapeCasts_S1024_S1024x1) := rfl
  rw [e, addf_apply, mulf_apply, col_of_vec]
  refine (congrArg (k3_pay19 (F := Ideal) q k m m (ix2 p 0) * l (ix2 p 0) + ·) (rowsum_apply _ _ _ _ p)).trans ?_
  unfold lNew alpha
  simp only [pay20_apply]
  rw [pay19_apply, pay18_apply]

theorem pay23_apply (V : FVec Ideal S1024x64 .bf16) (A : FVec Ideal S1024x1 .f32) (E : FVec Ideal S1024x1024 .f32)
    (a : Vec Ideal S1024x64 .f32) (p : Fin 1024) (d : Fin 64) :
    k3_pay23 (F := Ideal) V A E a (ix2 p d)
      = A (ix2 p 0) * a (ix2 p d) + ∑ kk : Fin 1024, E (ix2 p kk) * V (ix2 kk d) := by
  have e : k3_pay23 (F := Ideal) V A E a = shapeCast S1024x64 (addf (mulf (broadcastTo S1024x64 A broadcasts_S1024x1_S1024x64) a)
      (matmul dot_S1024x1024_S1024x64_S1024x64_1_0_0_1_n_n none (truncf .bf16 E bitsLt_bf16_f32) V (constant (F := Ideal) S1024x64 .f32 0x00000000#32)))
      shapeCasts_S1024x64_S1024x64 := rfl
  rw [e, shapeCast_self, addf_apply, mulf_apply, bcast_col_64, pv_apply]
  simp only [truncf_apply]

theorem pay1_apply (V : FVec Ideal S1024x64 .bf16) (A : FVec Ideal S1024x1 .f32) (E : FVec Ideal S1024x1024 .f32)
    (a : Vec Ideal S1024x64 .f32) (p : Fin 1024) (d : Fin 64) :
    k3_pay1 (F := Ideal) V A E a (ix2 p d)
      = A (ix2 p 0) * a (ix2 p d) + ∑ kk : Fin 1024, E (ix2 p kk) * V (ix2 kk d) := by
  have e : k3_pay1 (F := Ideal) V A E a = shapeCast S1024x64 (addf (mulf (broadcastTo S1024x64 A broadcasts_S1024x1_S1024x64) a)
      (matmul dot_S1024x1024_S1024x64_S1024x64_1_0_0_1_n_n none (truncf .bf16 E bitsLt_bf16_f32) V (constant (F := Ideal) S1024x64 .f32 0x00000000#32)))
      shapeCasts_S1024x64_S1024x64 := rfl
  rw [e, shapeCast_self, addf_apply, mulf_apply, bcast_col_64, pv_apply]
  simp only [truncf_apply]

theorem pay15_apply (v : Vec Ideal S1024x128 .bf16) (kk : Fin 1024) (d : Fin 64) :
    k3_pay15 (F := Ideal) v (ix2 kk d) = v (ix2 kk (c0 d)) := by
  unfold k3_pay15 k3_pay12
  rw [shapeCast_self, slice_lo]

theorem pay16_apply (v : Vec Ideal S1024x128 .bf16) (kk : Fin 1024) (d : Fin 64) :
    k3_pay16 (F := Ideal) v (ix2 kk d) = v (ix2 kk (c1 d)) := by
  unfold k3_pay16 k3_pay12
  rw [shapeCast_self, slice_hi]

theorem pay13_apply (q : Vec Ideal S1024x128 .bf16) (p : Fin 1024) (j : Fin 64) :
    k3_pay13 (F := Ideal) q (ix2 p j) = q (ix2 p (c1 j)) * Ideal.ofBits .bf16 0x3E00#16 := by
  unfold k3_pay13 k3_pay10
  show extractStridedSlice S1024x64 ![0, 64] (shapeCast S1024x128 q _) _ (ix2 p j) * Ideal.ofBits .bf16 0x3E00#16 = _
  rw [shapeCast_self, slice_hi]

theorem pay14_apply (k : Vec Ideal S1024x128 .bf16) (kk : Fin 1024) (j : Fin 64) :
    k3_pay14 (F := Ideal) k (ix2 kk j) = k (ix2 kk (c1 j)) := by
  unfold k3_pay14 k3_pay11
  rw [shapeCast_self, slice_hi]

theorem pay25_apply (q k : Vec Ideal S1024x128 .bf16) (p kk : Fin 1024) :
    k3_pay25 (F := Ideal) (k3_pay13 (F := Ideal) q) (k3_pay14 (F := Ideal) k) (ix2 p kk) = sc1 q k p kk := by
  unfold k3_pay25
  refine (qk_apply _ _ p kk).trans ?_
  unfold sc1 kscore
  refine Finset.sum_congr rfl fun j _ => ?_
  rw [pay13_apply, pay14_apply]

theorem pay26_apply (q k : Vec Ideal S1024x128 .bf16) (m : Vec Ideal S1024x1 .f32) (p : Fin 1024) (u : Fin 1) :
    k3_pay26 (F := Ideal) (k3_pay13 (F := Ideal) q) (k3_pay14 (F := Ideal) k) m (ix2 p u) = mNew (m (ix2 p u)) (sc1 q k p) := by
  have e : k3_pay26 (F := Ideal) (k3_pay13 (F := Ideal) q) (k3_pay14 (F := Ideal) k) m = maximumf m (shapeCast S1024x1 (multiReduction (F := Ideal) .maximumf [1] S1024
      (k3_pay25 (F := Ideal) (k3_pay13 (F := Ideal) q) (k3_pay14 (F := Ideal) k)) 0xFF800000#32 reduces_S1024x1024_S1024 (.inl rfl) rfl) shapeCasts_S1024_S1024x1) := rfl
  rw [e, maximumf_apply, col_of_vec]
  refine (congrArg (max (m (ix2 p u))) (rowmax_apply _ _ _ _ p)).trans ?_
  unfold mNew
  simp only [pay25_apply]

theorem pay27_apply (q k : Vec Ideal S1024x128 .bf16) (m m' : Vec Ideal S1024x1 .f32) (p : Fin 1024) (u : Fin 1) :
    k3_pay27 (F := Ideal) (k3_pay13 (F := Ideal) q) (k3_pay14 (F := Ideal) k) m m' (ix2 p u)
      = Ideal.exp (m' (ix2 p u) - k3_pay26 (F := Ideal) (k3_pay13 (F := Ideal) q) (k3_pay14 (F := Ideal) k) m (ix2 p u)) := by
  have e : k3_pay27 (F := Ideal) (k3_pay13 (F := Ideal) q) (k3_pay14 (F := Ideal) k) m m' = exp (subf m' (k3_pay26 (F := Ideal) (k3_pay13 (F := Ideal) q) (k3_pay14 (F := Ideal) k) m)) := rfl
  rw [e]
  rfl

theorem pay28_apply (q k : Vec Ideal S1024x128 .bf16) (m : Vec Ideal S1024x1 .f32) (p kk : Fin 1024) :
    k3_pay28 (F := Ideal) (k3_pay13 (F := Ideal) q) (k3_pay14 (F := Ideal) k) m (ix2 p kk)
      = Ideal.exp (sc1 q k p kk - mNew (m (ix2 p 0)) (sc1 q k p)) := by
  have e : k3_pay28 (F := Ideal) (k3_pay13 (F := Ideal) q) (k3_pay14 (F := Ideal) k) m = exp (subf (k3_pay25 (F := Ideal) (k3_pay13 (F := Ideal) q) (k3_pay14 (F := Ideal) k))
      (broadcastTo S1024x1024 (k3_pay26 (F := Ideal) (k3_pay13 (F := Ideal) q) (k3_pay14 (F := Ideal) k) m) broadcasts_S1024x1_S1024x1024)) := rfl
  rw [e]
  show Ideal.exp (k3_pay25 (F := Ideal) (k3_pay13 (F := Ideal) q) (k3_pay14 (F := Ideal) k) (ix2 p kk)
      - broadcastTo S1024x1024 (k3_pay26 (F := Ideal) (k3_pay13 (F := Ideal) q) (k3_pay14 (F := Ideal) k) m) broadcasts_S1024x1_S1024x1024 (ix2 p kk)) = _
  rw [bcast_col_1024, pay25_apply, pay26_apply]

theorem pay29_apply (q k : Vec Ideal S1024x128 .bf16) (m l : Vec Ideal S1024x1 .f32) (p : Fin 1024) :
    k3_pay29 (F := Ideal) (k3_pay13 (F := Ideal) q) (k3_pay14 (F := Ideal) k) m m l (ix2 p 0) = lNew (m (ix2 p 0)) (l (ix2 p 0)) (sc1 q k p) := by
  have e : k3_pay29 (F := Ideal) (k3_pay13 (F := Ideal) q) (k3_pay14 (F := Ideal) k) m m l = shapeCast S1024x1 (addf (mulf (k3_pay27 (F := Ideal) (k3_pay13 (F := Ideal) q) (k3_pay14 (F := Ideal) k) m m) l)
      (shapeCast S1024x1 (multiReduction (F := Ideal) .add [1] S1024 (k3_pay28 (F := Ideal) (k3_pay13 (F := Ideal) q) (k3_pay14 (F := Ideal) k) m) 0x00000000#32
        reduces_S1024x1024_S1024 (.inl rfl) rfl) shapeCasts_S1024_S1024x1)) shapeCasts_S1024x1_S1024x1 := rfl
  rw [e, shapeCast_self, addf_apply, mulf_apply, col_of_vec]
  refine (congrArg (k3_pay27 (F := Ideal) (k3_pay13 (F := Ideal) q) (k3_pay14 (F := Ideal) k) m m (ix2 p 0) * l (ix2 p 0) + ·) (rowsum_apply _ _ _ _ p)).trans ?_
  unfold lNew alpha
  simp only [pay28_apply]
  rw [pay27_apply, pay26_apply]

theorem step_m0 (q k v : Vec Ideal S1024x128 .bf16) (s : St Ideal) (p : Fin 1024) :
    (stStep q k v s).m0 (ix2 p 0) = mNew (s.m0 (ix2 p 0)) (sc0 q k p) := by
  have e : (stStep q k v s).m0 = shapeCast S1024x1 (k3_pay18 (F := Ideal) q k s.m0) shapeCasts_S1024x1_S1024x1 := rfl
  rw [e, shapeCast_self, pay18_apply]

theorem step_l0 (q k v : Vec Ideal S1024x128 .bf16) (s : St Ideal) (p : Fin 1024) :
    (stStep q k v s).l0 (ix2 p 0) = lNew (s.m0 (ix2 p 0)) (s.l0 (ix2 p 0)) (sc0 q k p) := by
  have e : (stStep q k v s).l0 = shapeCast S1024x1 (k3_pay21 (F := Ideal) q k s.m0 s.m0 s.l0) shapeCasts_S1024x1_S1024x1 := rfl
  rw [e, shapeCast_self, pay21_apply]

theorem step_a0 (q k v : Vec Ideal S1024x128 .bf16) (s : St Ideal) (p : Fin 1024) (d : Fin 64) :
    (stStep q k v s).a0 (ix2 p d)
      = accNew (s.m0 (ix2 p 0)) (s.a0 (ix2 p d)) (sc0 q k p) (fun kk => v (ix2 kk (c0 d))) := by
  have e : (stStep q k v s).a0 = k3_pay23 (F := Ideal) (k3_pay15 (F := Ideal) v) (k3_pay19 (F := Ideal) q k s.m0 s.m0)
      (k3_pay20 (F := Ideal) q k s.m0) s.a0 := rfl
  rw [e, pay23_apply]
  unfold accNew alpha
  simp only [pay20_apply, pay15_apply]
  rw [pay19_apply, pay18_apply]

theorem step_m1 (q k v : Vec Ideal S1024x128 .bf16) (s : St Ideal) (p : Fin 1024) :
    (stStep q k v s).m1 (ix2 p 0) = mNew (s.m1 (ix2 p 0)) (sc1 q k p) := by
  have e : (stStep q k v s).m1 = shapeCast S1024x1 (k3_pay26 (F := Ideal) (k3_pay13 (F := Ideal) q) (k3_pay14 (F := Ideal) k) s.m1) shapeCasts_S1024x1_S1024x1 := rfl
  rw [e, shapeCast_self, pay26_apply]

theorem step_l1 (q k v : Vec Ideal S1024x128 .bf16) (s : St Ideal) (p : Fin 1024) :
    (stStep q k v s).l1 (ix2 p 0) = lNew (s.m1 (ix2 p 0)) (s.l1 (ix2 p 0)) (sc1 q k p) := by
  have e : (stStep q k v s).l1 = k3_pay29 (F := Ideal) (k3_pay13 (F := Ideal) q) (k3_pay14 (F := Ideal) k) s.m1 s.m1 s.l1 := rfl
  rw [e, pay29_apply]

theorem step_a1 (q k v : Vec Ideal S1024x128 .bf16) (s : St Ideal) (p : Fin 1024) (d : Fin 64) :
    (stStep q k v s).a1 (ix2 p d)
      = accNew (s.m1 (ix2 p 0)) (s.a1 (ix2 p d)) (sc1 q k p) (fun kk => v (ix2 kk (c1 d))) := by
  have e : (stStep q k v s).a1 = k3_pay1 (F := Ideal) (k3_pay16 (F := Ideal) v) (k3_pay27 (F := Ideal) (k3_pay13 (F := Ideal) q) (k3_pay14 (F := Ideal) k) s.m1 s.m1)
      (k3_pay28 (F := Ideal) (k3_pay13 (F := Ideal) q) (k3_pay14 (F := Ideal) k) s.m1) s.a1 := rfl
  rw [e, pay1_apply]
  unfold accNew alpha
  simp only [pay28_apply, pay16_apply]
  rw [pay27_apply, pay26_apply]

theorem reset_m (p : Fin 1024) (u : Fin 1) :
    (stReset (F := Ideal)).m0 (ix2 p u) = ⊥ ∧ (stReset (F := Ideal)).m1 (ix2 p u) = ⊥ := by
  constructor
  · show k3_pay4 (F := Ideal) (ix2 p u) = ⊥
    unfold k3_pay4
    show shapeCast S1024x1 (broadcast S1024x1 (Ideal.ofBits .f32 0xFF800000#32)) _ (ix2 p u) = ⊥
    rw [shapeCast_self]
    exact ofBits_neg_inf
  · show k3_pay7 (F := Ideal) (ix2 p u) = ⊥
    unfold k3_pay7
    show shapeCast S1024x1 (broadcast S1024x1 (Ideal.ofBits .f32 0xFF800000#32)) _ (ix2 p u) = ⊥
    rw [shapeCast_self]
    exact ofBits_neg_inf

theorem reset_l (p : Fin 1024) (u : Fin 1) :
    (stReset (F := Ideal)).l0 (ix2 p u) = 0 ∧ (stReset (F := Ideal)).l1 (ix2 p u) = 0 := by
  constructor
  · show k3_pay5 (F := Ideal) (ix2 p u) = 0
    unfold k3_pay5
    show shapeCast S1024x1 (broadcast S1024x1 (Ideal.ofBits .f32 0x00000000#32)) _ (ix2 p u) = 0
    rw [shapeCast_self]
    exact Ideal.ofBits_zero_f32
  · show k3_pay8 (F := Ideal) (ix2 p u) = 0
    unfold k3_pay8
    show shapeCast S1024x1 (broadcast S1024x1 (Ideal.ofBits .f32 0x00000000#32)) _ (ix2 p u) = 0
    rw [shapeCast_self]
    exact Ideal.ofBits_zero_f32

theorem reset_a (p : Fin 1024) (d : Fin 64) :
    (stReset (F := Ideal)).a0 (ix2 p d) = 0 ∧ (stReset (F := Ideal)).a1 (ix2 p d) = 0 := by
  constructor
  · show k3_pay6 (F := Ideal) (ix2 p d) = 0
    unfold k3_pay6
    show shapeCast S1024x64 (broadcast S1024x64 (Ideal.ofBits .f32 0x00000000#32)) _ (ix2 p d) = 0
    rw [shapeCast_self]
    exact Ideal.ofBits_zero_f32
  · show k3_pay9 (F := Ideal) (ix2 p d) = 0
    unfold k3_pay9
    show shapeCast S1024x64 (broadcast S1024x64 (Ideal.ofBits .f32 0x00000000#32)) _ (ix2 p d) = 0
    rw [shapeCast_self]
    exact Ideal.ofBits_zero_f32

theorem stOut_eq (s : St Ideal) :
    stOut s = (truncf .bf16 (concatenate S1024x128 1
      [⟨S1024x64, (divf s.a0 (broadcastTo S1024x64 s.l0 broadcasts_S1024x1_S1024x64) : FVec Ideal S1024x64 .f32)⟩,
       ⟨S1024x64, (divf s.a1 (broadcastTo S1024x64 s.l1 broadcasts_S1024x1_S1024x64) : FVec Ideal S1024x64 .f32)⟩]
      concatenates_S1024x64_S1024x64_S1024x128_d1 : FVec Ideal S1024x128 .f32) bitsLt_bf16_f32 : FVec Ideal S1024x128 .bf16) := rfl

theorem out_lo (s : St Ideal) (p : Fin 1024) (d : Fin 64) :
    stOut s (ix2 p (c0 d)) = Ideal.div (s.a0 (ix2 p d)) (s.l0 (ix2 p 0)) := by
  rw [stOut_eq, truncf_apply]
  refine (concatenate_pair_apply_left (1 : Fin S1024x128.rank) _ _ concatenates_S1024x64_S1024x64_S1024x128_d1 (ix2 p (c0 d)) rfl (ix2 p d)
    (fun b => ?_)).trans ?_
  · match b with
    | ⟨0, _⟩ => rfl
    | ⟨1, _⟩ => rfl
  · rw [divf_apply, bcast_col_64]

theorem out_hi (s : St Ideal) (p : Fin 1024) (d : Fin 64) :
    stOut s (ix2 p (c1 d)) = Ideal.div (s.a1 (ix2 p d)) (s.l1 (ix2 p 0)) := by
  rw [stOut_eq, truncf_apply]
  refine (concatenate_pair_apply_right (1 : Fin S1024x128.rank) _ _ concatenates_S1024x64_S1024x64_S1024x128_d1 (ix2 p (c1 d)) rfl rfl (ix2 p d)
    (fun b hb => ?_) ?_).trans ?_
  · match b with
    | ⟨0, _⟩ => rfl
    | ⟨1, _⟩ => exact absurd rfl hb
  · show d.val + 64 = 64 + d.val
    omega
  · rw [divf_apply, bcast_col_64]

def hcol (e : Fin 128) (j : Fin 64) : Fin 128 := ⟨e.val / 64 * 64 + j.val, by omega⟩

theorem hcol_c0 (d j : Fin 64) : hcol (c0 d) j = c0 j := Fin.ext (by
  show d.val / 64 * 64 + j.val = j.val
  have := d.isLt
  omega)

theorem hcol_c1 (d j : Fin 64) : hcol (c1 d) j = c1 j := Fin.ext (by
  show (64 + d.val) / 64 * 64 + j.val = 64 + j.val
  have := d.isLt
  omega)

theorem two_blocks_lo (q k0 v0 k1 v1 : Vec Ideal S1024x128 .bf16) (p : Fin 1024) (d : Fin 64) :
    stOut (F := Ideal) (stStep q k1 v1 (stStep q k0 v0 stReset)) (ix2 p (c0 d))
      = flash2 (sc0 q k0 p) (fun kk => v0 (ix2 kk (c0 d))) (sc0 q k1 p) (fun kk => v1 (ix2 kk (c0 d))) := by
  rw [out_lo, step_a0 q k1 v1, step_l0 q k1 v1, step_m0 q k0 v0, step_l0 q k0 v0, step_a0 q k0 v0,
    (reset_m p 0).1, (reset_l p 0).1, (reset_a p d).1]
  rfl

theorem two_blocks_hi (q k0 v0 k1 v1 : Vec Ideal S1024x128 .bf16) (p : Fin 1024) (d : Fin 64) :
    stOut (F := Ideal) (stStep q k1 v1 (stStep q k0 v0 stReset)) (ix2 p (c1 d))
      = flash2 (sc1 q k0 p) (fun kk => v0 (ix2 kk (c1 d))) (sc1 q k1 p) (fun kk => v1 (ix2 kk (c1 d))) := by
  rw [out_hi, step_a1 q k1 v1, step_l1 q k1 v1, step_m1 q k0 v0, step_l1 q k0 v0, step_a1 q k0 v0,
    (reset_m p 0).2, (reset_l p 0).2, (reset_a p d).2]
  rfl

theorem stOut_two_blocks (q k0 v0 k1 v1 : Vec Ideal S1024x128 .bf16) (p : Fin 1024) (e : Fin 128) :
    stOut (F := Ideal) (stStep q k1 v1 (stStep q k0 v0 stReset)) (ix2 p e)
      = flash2
          (fun k : Fin 1024 => kscore (Ideal.ofBits .bf16 0x3E00#16) (fun j => q (ix2 p (hcol e j))) (fun j => k0 (ix2 k (hcol e j))))
          (fun k => v0 (ix2 k e))
          (fun k : Fin 1024 => kscore (Ideal.ofBits .bf16 0x3E00#16) (fun j => q (ix2 p (hcol e j))) (fun j => k1 (ix2 k (hcol e j))))
          (fun k => v1 (ix2 k e)) := by
  by_cases he : e.val < 64
  · obtain ⟨d, rfl⟩ : ∃ d : Fin 64, e = c0 d := ⟨⟨e.val, he⟩, rfl⟩
    simp only [hcol_c0]
    exact two_blocks_lo q k0 v0 k1 v1 p d
  · obtain ⟨d, rfl⟩ : ∃ d : Fin 64, e = c1 d := ⟨⟨e.val - 64, by omega⟩, Fin.ext (by show e.val = 64 + (e.val - 64); omega)⟩
    simp only [hcol_c1]
    exact two_blocks_hi q k0 v0 k1 v1 p d

end Cert.AttnVal

end
-- ==== Proof.Val.AttnArr.lean ====
import proofs.«401353_j50216757624952_3_alg».proof.Proof.KI.Attn
import proofs.«401353_j50216757624952_3_alg».proof.Proof.Val.AttnPay
import proofs.«401353_j50216757624952_3_alg».proof.Proof.Alg.ModelSpec
set_option maxRecDepth 16384

noncomputable section

namespace Cert.AttnVal

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat Cfg Window)
open scoped BigOperators

theorem grid3_index : ∀ t : Fin cfg3.N,
      win3_0.index t (0 : Fin 2) = t.val / 32 * 2 + t.val / 2 % 2 ∧ win3_0.index t (1 : Fin 2) = t.val / 4 % 8
    ∧ win3_1.index t (0 : Fin 2) = t.val / 32 * 2 + t.val % 2 ∧ win3_1.index t (1 : Fin 2) = t.val / 4 % 8
    ∧ win3_2.index t (0 : Fin 2) = t.val / 32 * 2 + t.val % 2 ∧ win3_2.index t (1 : Fin 2) = t.val / 4 % 8
    ∧ win3_3.index t (0 : Fin 2) = t.val / 32 * 2 + t.val / 2 % 2 ∧ win3_3.index t (1 : Fin 2) = t.val / 4 % 8 :=
  (by decide +kernel : ∀ t : Fin grid3.N, _)

variable (V : (c : Dev nD) → (b : Ref sig .tc) → Buf (Elt Ideal) ((c : Thread nD τ).loc b))

theorem qblock_apply (c : Dev nD) (t : Fin cfg3.N) (p : Fin 1024) (e : Fin 128) (r : Fin 8192) (d : Fin 1024)
    (hr : r.val = win3_0.index t (0 : Fin 2) * 1024 + p.val) (hd : d.val = win3_0.index t (1 : Fin 2) * 128 + e.val) :
    iblk3 (F := Ideal) V c 0 t (ix2 p e) = V c main_v11 (ix2 r d) := by
  show V c main_v11 (((cfg3.win 0).blk t).view.emb (ix2 p e)) = V c main_v11 (ix2 r d)
  refine congrArg _ (funext fun a => Fin.ext ?_)
  match a with
  | ⟨0, _⟩ => show win3_0.index t (0 : Fin 2) * 1024 + 1 * p.val = r.val; omega
  | ⟨1, _⟩ => show win3_0.index t (1 : Fin 2) * 128 + 1 * e.val = d.val; omega

theorem kblock_apply (c : Dev nD) (t : Fin cfg3.N) (p : Fin 1024) (e : Fin 128) (r : Fin 8192) (d : Fin 1024)
    (hr : r.val = win3_1.index t (0 : Fin 2) * 1024 + p.val) (hd : d.val = win3_1.index t (1 : Fin 2) * 128 + e.val) :
    iblk3 (F := Ideal) V c 1 t (ix2 p e) = V c main_v12 (ix2 r d) := by
  show V c main_v12 (((cfg3.win 1).blk t).view.emb (ix2 p e)) = V c main_v12 (ix2 r d)
  refine congrArg _ (funext fun a => Fin.ext ?_)
  match a with
  | ⟨0, _⟩ => show win3_1.index t (0 : Fin 2) * 1024 + 1 * p.val = r.val; omega
  | ⟨1, _⟩ => show win3_1.index t (1 : Fin 2) * 128 + 1 * e.val = d.val; omega

theorem vblock_apply (c : Dev nD) (t : Fin cfg3.N) (p : Fin 1024) (e : Fin 128) (r : Fin 8192) (d : Fin 1024)
    (hr : r.val = win3_2.index t (0 : Fin 2) * 1024 + p.val) (hd : d.val = win3_2.index t (1 : Fin 2) * 128 + e.val) :
    iblk3 (F := Ideal) V c 2 t (ix2 p e) = V c main_v13 (ix2 r d) := by
  show V c main_v13 (((cfg3.win 2).blk t).view.emb (ix2 p e)) = V c main_v13 (ix2 r d)
  refine congrArg _ (funext fun a => Fin.ext ?_)
  match a with
  | ⟨0, _⟩ => show win3_2.index t (0 : Fin 2) * 1024 + 1 * p.val = r.val; omega
  | ⟨1, _⟩ => show win3_2.index t (1 : Fin 2) * 128 + 1 * e.val = d.val; omega

local notation "cst" => (Ideal.ofBits FTy.bf16 0x3E00#16 : EReal)

def pairStart (t : Fin cfg3.N) : Fin cfg3.N := ⟨t.val - 1, Nat.lt_of_le_of_lt (Nat.sub_le _ _) t.isLt⟩

theorem point_lt (t : Fin cfg3.N) : t.val < 128 := Nat.lt_of_lt_of_eq t.isLt N_3

theorem qblock_pairStart (c : Dev nD) (t : Fin cfg3.N) (h : t.val % 2 = 1) :
    (iblk3 (F := Ideal) V c 0 (pairStart t) : Vec Ideal S1024x128 .bf16) = iblk3 (F := Ideal) V c 0 t := by
  funext y
  obtain ⟨p, e, rfl⟩ : ∃ (p : Fin 1024) (e : Fin 128), y = ix2 p e := ⟨y 0, y 1, eq_ix2 y⟩
  obtain ⟨a0, a1, -⟩ := grid3_index t
  obtain ⟨b0, b1, -⟩ := grid3_index (pairStart t)
  have hp : (pairStart t).val = t.val - 1 := rfl
  have hl := point_lt t
  have hp0 := p.isLt
  have he0 := e.isLt
  have e1 := qblock_apply V c t p e ⟨(t.val / 32 * 2 + t.val / 2 % 2) * 1024 + p.val, by omega⟩ ⟨t.val / 4 % 8 * 128 + e.val, by omega⟩
    (by rw [a0]) (by rw [a1])
  have e2 := qblock_apply V c (pairStart t) p e ⟨(t.val / 32 * 2 + t.val / 2 % 2) * 1024 + p.val, by omega⟩ ⟨t.val / 4 % 8 * 128 + e.val, by omega⟩
    (by rw [b0]; dsimp only; omega) (by rw [b1]; dsimp only; omega)
  exact e2.trans e1.symm

theorem stored_apply (c : Dev nD) (t : Fin cfg3.N) (h : t.val % 2 = 1) (p : Fin 1024) (e : Fin 128) :
    (dat3 (F := Ideal) V c).after 3 t (ix2 p e)
      = flash2 (fun k : Fin 1024 => kscore cst (fun j => iblk3 (F := Ideal) V c 0 t (ix2 p (hcol e j))) (fun j => iblk3 (F := Ideal) V c 1 (pairStart t) (ix2 k (hcol e j)))) (fun k => iblk3 (F := Ideal) V c 2 (pairStart t) (ix2 k e))
               (fun k : Fin 1024 => kscore cst (fun j => iblk3 (F := Ideal) V c 0 t (ix2 p (hcol e j))) (fun j => iblk3 (F := Ideal) V c 1 t (ix2 k (hcol e j)))) (fun k => iblk3 (F := Ideal) V c 2 t (ix2 k e)) := by
  have ht' : (pairStart t).val % 2 = 0 := by show (t.val - 1) % 2 = 0; omega
  have s1 : stAt3 (F := Ideal) V c t.val t.isLt
      = stStep (iblk3 V c 0 t) (iblk3 V c 1 t) (iblk3 V c 2 t) (stStep (iblk3 V c 0 t) (iblk3 V c 1 (pairStart t)) (iblk3 V c 2 (pairStart t)) stReset) :=
    (stAt3_odd V c t h).trans (congrArg _ ((stAt3_even V c (pairStart t) ht').trans
      (congrArg (fun q => stStep q (iblk3 V c 1 (pairStart t)) (iblk3 V c 2 (pairStart t)) stReset) (qblock_pairStart V c t h))))
  refine (congrFun (after3_3_odd V c t h) (ix2 p e)).trans ?_
  refine (congrArg (fun s => stOut s (ix2 p e)) s1).trans ?_
  exact stOut_two_blocks _ _ _ _ _ p e

theorem stored_eq_attnK (c : Dev nD) (t : Fin cfg3.N) (h : t.val % 2 = 1) (p : Fin 1024) (e : Fin 128) (r : Fin 8192) (d : Fin 1024)
    (hr : r.val = (t.val / 32 * 2 + t.val / 2 % 2) * 1024 + p.val) (hd : d.val = t.val / 4 % 8 * 128 + e.val) :
    (dat3 (F := Ideal) V c).after 3 t (ix2 p e)
      = attnK cst (fun j => V c main_v11 (ix2 r (hc d j))) (fun k j => V c main_v12 (ix2 (rowOf r k) (hc d j))) (fun k => V c main_v13 (ix2 (rowOf r k) d)) := by
  obtain ⟨a0, a1, a2, a3, a4, a5, -⟩ := grid3_index t
  obtain ⟨-, -, b2, b3, b4, b5, -⟩ := grid3_index (pairStart t)
  have hp : (pairStart t).val = t.val - 1 := rfl
  have hl := point_lt t
  have hp0 := p.isLt
  have he0 := e.isLt
  have hcv : ∀ j : Fin 64, (hc d j).val = d.val / 64 * 64 + j.val := fun _ => rfl
  have hcl : ∀ j : Fin 64, (hcol e j).val = e.val / 64 * 64 + j.val := fun _ => rfl
  have hro : ∀ k : Fin 2048, (rowOf r k).val = r.val / 2048 * 2048 + k.val := fun _ => rfl
  have hq : ∀ j : Fin 64, iblk3 (F := Ideal) V c 0 t (ix2 p (hcol e j)) = V c main_v11 (ix2 r (hc d j)) := fun j =>
    qblock_apply V c t p (hcol e j) r (hc d j) (by rw [a0]; exact hr) (by have := j.isLt; rw [a1, hcv, hcl]; omega)
  have hk0 : ∀ (k : Fin 1024) (j : Fin 64), iblk3 (F := Ideal) V c 1 (pairStart t) (ix2 k (hcol e j))
      = V c main_v12 (ix2 (rowOf r ⟨k.val, by omega⟩) (hc d j)) := fun k j =>
    kblock_apply V c (pairStart t) k (hcol e j) _ (hc d j) (by have := k.isLt; rw [b2, hro]; dsimp only; omega) (by have := j.isLt; rw [b3, hcv, hcl]; omega)
  have hv0 : ∀ k : Fin 1024, iblk3 (F := Ideal) V c 2 (pairStart t) (ix2 k e) = V c main_v13 (ix2 (rowOf r ⟨k.val, by omega⟩) d) := fun k =>
    vblock_apply V c (pairStart t) k e _ d (by have := k.isLt; rw [b4, hro]; dsimp only; omega) (by rw [b5]; omega)
  have hk1 : ∀ (k : Fin 1024) (j : Fin 64), iblk3 (F := Ideal) V c 1 t (ix2 k (hcol e j))
      = V c main_v12 (ix2 (rowOf r ⟨k.val + 1024, by omega⟩) (hc d j)) := fun k j =>
    kblock_apply V c t k (hcol e j) _ (hc d j) (by have := k.isLt; rw [a2, hro]; dsimp only; omega) (by have := j.isLt; rw [a3, hcv, hcl]; omega)
  have hv1 : ∀ k : Fin 1024, iblk3 (F := Ideal) V c 2 t (ix2 k e) = V c main_v13 (ix2 (rowOf r ⟨k.val + 1024, by omega⟩) d) := fun k =>
    vblock_apply V c t k e _ d (by have := k.isLt; rw [a4, hro]; dsimp only; omega) (by rw [a5]; omega)
  refine (stored_apply V c t h p e).trans ?_
  simp only [hq, hk0, hv0, hk1, hv1]
  rfl

def ctxK (Q K W : S8192x1024.Idx → EReal) : S8192x1024.Idx → EReal := fun i =>
  attnK cst (fun j => Q (ix2 (i 0) (hc (i 1) j))) (fun k j => K (ix2 (rowOf (i 0) k) (hc (i 1) j))) (fun k => W (ix2 (rowOf (i 0) k) (i 1)))

theorem flushed_ctxK (c : Dev nD) (t : Fin cfg3.N) (hf : (cfg3.win 3).flush t = true) :
    (dat3 (F := Ideal) V c).flushed 3 t
      = ((cfg3.win 3).blk t).view.read (Elt Ideal) (ctxK (V c main_v11) (V c main_v12) (V c main_v13)) := by
  have h : t.val % 2 = 1 := (flush3_3 t).mp hf
  funext y
  obtain ⟨p, e, rfl⟩ : ∃ (p : Fin 1024) (e : Fin 128), y = ix2 p e := ⟨y 0, y 1, eq_ix2 y⟩
  obtain ⟨-, -, -, -, -, -, i0, i1⟩ := grid3_index t
  have hl := point_lt t
  have hp0 := p.isLt
  have he0 := e.isLt
  have hemb : ((cfg3.win 3).blk t).view.emb (ix2 p e)
      = ix2 (⟨(t.val / 32 * 2 + t.val / 2 % 2) * 1024 + p.val, by omega⟩ : Fin 8192) (⟨t.val / 4 % 8 * 128 + e.val, by omega⟩ : Fin 1024) := by
    funext a; apply Fin.ext
    match a with
    | ⟨0, _⟩ => show win3_3.index t (0 : Fin 2) * 1024 + 1 * p.val = _; rw [i0]; show _ = (t.val / 32 * 2 + t.val / 2 % 2) * 1024 + p.val; omega
    | ⟨1, _⟩ => show win3_3.index t (1 : Fin 2) * 128 + 1 * e.val = _; rw [i1]; show _ = t.val / 4 % 8 * 128 + e.val; omega
  show (dat3 (F := Ideal) V c).after 3 t (ix2 p e) = ctxK (V c main_v11) (V c main_v12) (V c main_v13) (((cfg3.win 3).blk t).view.emb (ix2 p e))
  rw [hemb]
  exact stored_eq_attnK V c t h p e _ _ rfl rfl

def pointOf (r : Fin 8192) (e : Fin 1024) : Fin cfg3.N :=
  ⟨((r.val / 2048 * 8 + e.val / 128) * 2 + r.val % 2048 / 1024) * 2 + 1, by
    have hN : cfg3.N = 128 := N_3
    rw [hN]; omega⟩

theorem arr3_apply (c : Dev nD) (r : Fin 8192) (e : Fin 1024) :
    (dat3 (F := Ideal) V c).arrAt 3 cfg3.N (ix2 r e)
      = attnK (Ideal.ofBits .bf16 0x3E00#16) (fun j => V c main_v11 (ix2 r (hc e j))) (fun k j => V c main_v12 (ix2 (rowOf r k) (hc e j))) (fun k => V c main_v13 (ix2 (rowOf r k) e)) := by
  have hv : (pointOf r e).val = ((r.val / 2048 * 8 + e.val / 128) * 2 + r.val % 2048 / 1024) * 2 + 1 := rfl
  have hodd : (pointOf r e).val % 2 = 1 := by rw [hv]; omega
  obtain ⟨-, -, -, -, -, -, i0, i1⟩ := grid3_index (pointOf r e)
  have hr0 := r.isLt
  have he0 := e.isLt
  have hmem : ix2 r e ∈ ((cfg3.win 3).blk (pointOf r e)).view.set := by
    have hemb : ((cfg3.win 3).blk (pointOf r e)).view.emb (ix2 (⟨r.val % 1024, Nat.mod_lt _ (by decide)⟩ : Fin 1024) (⟨e.val % 128, Nat.mod_lt _ (by decide)⟩ : Fin 128)) = ix2 r e := by
      funext a; apply Fin.ext
      match a with
      | ⟨0, _⟩ => show win3_3.index (pointOf r e) (0 : Fin 2) * 1024 + 1 * (r.val % 1024) = r.val; rw [i0, hv]; omega
      | ⟨1, _⟩ => show win3_3.index (pointOf r e) (1 : Fin 2) * 128 + 1 * (e.val % 128) = e.val; rw [i1, hv]; omega
    rw [← hemb]
    exact View.emb_mem_set _ _
  exact (dat3 (F := Ideal) V c).arrAt_apply_of_mem 3 (ctxK (V c main_v11) (V c main_v12) (V c main_v13))
    (fun t hf => flushed_ctxK V c t hf) cfg3.N (pointOf r e) (ix2 r e) (pointOf r e).isLt ((flush3_3 _).mpr hodd) hmem

end Cert.AttnVal

end
-- ==== Proof.Val.Compose.lean ====
import proofs.«401353_j50216757624952_3_alg».proof.Proof.Val.HostVal
import proofs.«401353_j50216757624952_3_alg».proof.Proof.Val.LinArr
import proofs.«401353_j50216757624952_3_alg».proof.Proof.Val.AttnArr
set_option maxRecDepth 16384

noncomputable section

namespace Cert.KVal

open Cert.KernelIdeal Cert.KernelIdeal.Gen Cert.KernelIdeal.Hand Cert.Spec
open Idealize.ShloMosaic Idealize.ShloMosaic.TcCoe Idealize.ShloMosaic.ValueIdx
open Idealize.SL Idealize.SL.Sem
open scoped BigOperators

variable (m : (ℓ : Loc nD τ sig) → Buf (Elt Ideal) ℓ)

theorem V4_q (c : Dev nD) : V4 (F := Ideal) m c main_v11 = (dat0 (V1 m) c).arrAt 3 cfg0.N :=
  (W4_of_ne m c main_v11 (by decide)).trans ((W3_of_ne m c main_v11 (by decide)).trans (W2_arr m c 3))

theorem V4_k (c : Dev nD) : V4 (F := Ideal) m c main_v12 = (dat1 (V2 m) c).arrAt 3 cfg1.N :=
  (W4_of_ne m c main_v12 (by decide)).trans (W3_arr m c 3)

theorem V4_v (c : Dev nD) : V4 (F := Ideal) m c main_v13 = (dat2 (V3 m) c).arrAt 3 cfg2.N :=
  W4_arr m c 3

theorem V5_ctx (c : Dev nD) : V5 (F := Ideal) m c main_v14 = (dat3 (V4 m) c).arrAt 3 cfg3.N :=
  W5_arr m c 3

theorem W6_out (c : Dev nD) : W6 (F := Ideal) m c (Proc.devRef .tc main_v15) = (dat4 (V5 m) c).arrAt 2 cfg4.N :=
  W6_arr m c 2

theorem V2_of_host (c : Dev nD) (b : Ref sig .tc) (h0 : ∀ w, Pipeline.arrRef spec0 w ≠ b) : V2 (F := Ideal) m c b = V1 m c b :=
  W2_of_ne m c b h0
theorem V3_of_host (c : Dev nD) (b : Ref sig .tc) (h0 : ∀ w, Pipeline.arrRef spec0 w ≠ b) (h1 : ∀ w, Pipeline.arrRef spec1 w ≠ b) :
    V3 (F := Ideal) m c b = V1 m c b :=
  (W3_of_ne m c b h1).trans (W2_of_ne m c b h0)
theorem V5_of_host (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) : V5 (F := Ideal) m c b = V1 m c b :=
  (W5_of_ne m c b h3).trans ((W4_of_ne m c b h2).trans ((W3_of_ne m c b h1).trans (W2_of_ne m c b h0)))

theorem q_apply (c : Dev nD) (r : Fin 8192) (e : Fin 1024) :
    V4 (F := Ideal) m c main_v11 (ix2 r e)
      = proj (rows3 (m ((c : Thread nD τ).loc main_arg0))) (mat2 (m ((c : Thread nD τ).loc main_arg3))) (vec1 (m ((c : Thread nD τ).loc main_arg4))) r e := by
  rw [V4_q, Cert.LinVal.arr0_apply (V1 m) c r e, V1_b0]
  unfold proj
  exact congrArg (· + _) (Finset.sum_congr rfl fun k _ => by rw [V1_x0, V1_w0])

theorem k_apply (c : Dev nD) (r : Fin 8192) (e : Fin 1024) :
    V4 (F := Ideal) m c main_v12 (ix2 r e)
      = proj (rows3 (m ((c : Thread nD τ).loc main_arg1))) (mat2 (m ((c : Thread nD τ).loc main_arg5))) (vec1 (m ((c : Thread nD τ).loc main_arg6))) r e := by
  rw [V4_k, Cert.LinVal.arr1_apply (V2 m) c r e, V2_of_host m c main_arg6 (by decide), V1_b1]
  unfold proj
  exact congrArg (· + _) (Finset.sum_congr rfl fun k _ => by
    rw [V2_of_host m c main_v9 (by decide), V2_of_host m c main_v3 (by decide), V1_x1, V1_w1])

theorem v_apply (c : Dev nD) (r : Fin 8192) (e : Fin 1024) :
    V4 (F := Ideal) m c main_v13 (ix2 r e)
      = proj (rows3 (m ((c : Thread nD τ).loc main_arg2))) (mat2 (m ((c : Thread nD τ).loc main_arg7))) (vec1 (m ((c : Thread nD τ).loc main_arg8))) r e := by
  rw [V4_v, Cert.LinVal.arr2_apply (V3 m) c r e, V3_of_host m c main_arg8 (by decide) (by decide), V1_b2]
  unfold proj
  exact congrArg (· + _) (Finset.sum_congr rfl fun k _ => by
    rw [V3_of_host m c main_v10 (by decide) (by decide), V3_of_host m c main_v5 (by decide) (by decide), V1_x2, V1_w2])

theorem wo_apply (c : Dev nD) (e d : Fin 1024) :
    (V5 (F := Ideal) m c main_v7 (ix2 e d) : EReal) = mat2 (m ((c : Thread nD τ).loc main_arg9)) d e := by
  rw [V5_of_host m c main_v7 (by decide) (by decide) (by decide) (by decide)]
  exact V1_w3 m c e d

theorem ctx_apply (c : Dev nD) (r : Fin 8192) (e : Fin 1024) :
    (V5 (F := Ideal) m c main_v14 (ix2 r e) : EReal)
      = ctxWith (attnK (Ideal.ofBits .bf16 0x3E00#16)) (proj (rows3 (m ((c : Thread nD τ).loc main_arg0))) (mat2 (m ((c : Thread nD τ).loc main_arg3))) (vec1 (m ((c : Thread nD τ).loc main_arg4)))) (proj (rows3 (m ((c : Thread nD τ).loc main_arg1))) (mat2 (m ((c : Thread nD τ).loc main_arg5))) (vec1 (m ((c : Thread nD τ).loc main_arg6)))) (proj (rows3 (m ((c : Thread nD τ).loc main_arg2))) (mat2 (m ((c : Thread nD τ).loc main_arg7))) (vec1 (m ((c : Thread nD τ).loc main_arg8)))) r e := by
  rw [V5_ctx, Cert.AttnVal.arr3_apply (V4 m) c r e]
  unfold ctxWith
  have hq : (fun j => V4 (F := Ideal) m c main_v11 (ix2 r (hc e j))) = fun j => (proj (rows3 (m ((c : Thread nD τ).loc main_arg0))) (mat2 (m ((c : Thread nD τ).loc main_arg3))) (vec1 (m ((c : Thread nD τ).loc main_arg4)))) r (hc e j) :=
    funext fun j => q_apply m c _ _
  have hk : (fun k j => V4 (F := Ideal) m c main_v12 (ix2 (rowOf r k) (hc e j))) = fun k j => (proj (rows3 (m ((c : Thread nD τ).loc main_arg1))) (mat2 (m ((c : Thread nD τ).loc main_arg5))) (vec1 (m ((c : Thread nD τ).loc main_arg6)))) (rowOf r k) (hc e j) :=
    funext fun k => funext fun j => k_apply m c _ _
  have hv : (fun k => V4 (F := Ideal) m c main_v13 (ix2 (rowOf r k) e)) = fun k => (proj (rows3 (m ((c : Thread nD τ).loc main_arg2))) (mat2 (m ((c : Thread nD τ).loc main_arg7))) (vec1 (m ((c : Thread nD τ).loc main_arg8)))) (rowOf r k) e :=
    funext fun k => v_apply m c _ _
  rw [hq, hk, hv]

theorem out_apply (c : Dev nD) (r : Fin 8192) (d : Fin 1024) :
    (W6 (F := Ideal) m c (Proc.devRef .tc main_v15) (ix2 r d) : EReal)
      = outp (ctxWith (attnK (Ideal.ofBits .bf16 0x3E00#16)) (proj (rows3 (m ((c : Thread nD τ).loc main_arg0))) (mat2 (m ((c : Thread nD τ).loc main_arg3))) (vec1 (m ((c : Thread nD τ).loc main_arg4)))) (proj (rows3 (m ((c : Thread nD τ).loc main_arg1))) (mat2 (m ((c : Thread nD τ).loc main_arg5))) (vec1 (m ((c : Thread nD τ).loc main_arg6)))) (proj (rows3 (m ((c : Thread nD τ).loc main_arg2))) (mat2 (m ((c : Thread nD τ).loc main_arg7))) (vec1 (m ((c : Thread nD τ).loc main_arg8))))) (mat2 (m ((c : Thread nD τ).loc main_arg9))) r d := by
  rw [W6_out, Cert.LinVal.arr4_apply (V5 m) c r d]
  unfold outp
  have h : (∑ e : Fin 1024, HMul.hMul (α := EReal) (β := EReal) (γ := EReal) (V5 (F := Ideal) m c main_v14 (ix2 r e)) (V5 (F := Ideal) m c main_v7 (ix2 e d)))
      = ∑ e : Fin 1024, ctxWith (attnK (Ideal.ofBits .bf16 0x3E00#16)) (proj (rows3 (m ((c : Thread nD τ).loc main_arg0))) (mat2 (m ((c : Thread nD τ).loc main_arg3))) (vec1 (m ((c : Thread nD τ).loc main_arg4)))) (proj (rows3 (m ((c : Thread nD τ).loc main_arg1))) (mat2 (m ((c : Thread nD τ).loc main_arg5))) (vec1 (m ((c : Thread nD τ).loc main_arg6)))) (proj (rows3 (m ((c : Thread nD τ).loc main_arg2))) (mat2 (m ((c : Thread nD τ).loc main_arg7))) (vec1 (m ((c : Thread nD τ).loc main_arg8)))) r e * mat2 (m ((c : Thread nD τ).loc main_arg9)) d e :=
    Finset.sum_congr rfl fun e _ => by rw [ctx_apply, wo_apply]
  exact h

theorem kernel_apply (c : Dev nD) (b : Fin 4) (s : Fin 2048) (d : Fin 1024) :
    (W7 (F := Ideal) m c (Proc.devRef .tc main_v16) (ix3 b s d) : EReal)
      = model (attnK (Ideal.ofBits .bf16 0x3E00#16))
          (rows3 (m ((c : Thread nD τ).loc main_arg0))) (rows3 (m ((c : Thread nD τ).loc main_arg1))) (rows3 (m ((c : Thread nD τ).loc main_arg2)))
          (mat2 (m ((c : Thread nD τ).loc main_arg3))) (vec1 (m ((c : Thread nD τ).loc main_arg4))) (mat2 (m ((c : Thread nD τ).loc main_arg5))) (vec1 (m ((c : Thread nD τ).loc main_arg6))) (mat2 (m ((c : Thread nD τ).loc main_arg7))) (vec1 (m ((c : Thread nD τ).loc main_arg8)))
          (mat2 (m ((c : Thread nD τ).loc main_arg9))) (rowAt b s) d := by
  rw [W7_out]
  exact out_apply m c (rowAt b s) d

end Cert.KVal

end
-- ==== Proof.Val.Finite.lean ====
import proofs.«401353_j50216757624952_3_alg».proof.Defs
import proofs.«401353_j50216757624952_3_alg».proof.Proof.Gen.Pre_finite_inputs
import Idealize.ShloMosaic.Lib.ReduceAll
import Idealize.ShloMosaic.Lib.ValueIdx

noncomputable section

namespace Cert.FiniteVal

open Idealize.ShloMosaic Idealize.SL.Sem

attribute [local instance] Cert.Pre_finite_inputs.Gen.facts

theorem inf_pattern : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_pattern] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x)
          (broadcastInDim s ![] hb (constant (F := Ideal) Cert.Pre_finite_inputs.S_ .f32 0x7F800000#32)))
        init hr hu j = 1#1) (i : s.Idx) : ∃ r : ℝ, x i = (r : EReal) :=
  real_of_abs_lt (x i) (Host.reduce_andi_all _ init hr hu j e i)

theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨e0, e1⟩, e2⟩, e3⟩, e4⟩, e5⟩, e6⟩, e7⟩, e8⟩, e9⟩ := h0
  exact ⟨real_of_all _ _ _ _ _ _ e0, real_of_all _ _ _ _ _ _ e1, real_of_all _ _ _ _ _ _ e2,
    real_of_all _ _ _ _ _ _ e3, real_of_all _ _ _ _ _ _ e4, real_of_all _ _ _ _ _ _ e5,
    real_of_all _ _ _ _ _ _ e6, real_of_all _ _ _ _ _ _ e7, real_of_all _ _ _ _ _ _ e8,
    real_of_all _ _ _ _ _ _ e9⟩

theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_of_pre m h c).1

theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (real_of_pre m h c).2.1

theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_of_pre m h c).2.2.1

theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (real_of_pre m h c).2.2.2.1

theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (real_of_pre m h c).2.2.2.2.1

theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (real_of_pre m h c).2.2.2.2.2.1

theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (real_of_pre m h c).2.2.2.2.2.2.1

theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (real_of_pre m h c).2.2.2.2.2.2.2.1

theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (real_of_pre m h c).2.2.2.2.2.2.2.2.1

theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (real_of_pre m h c).2.2.2.2.2.2.2.2.2

end Cert.FiniteVal

end
-- ==== Proof.Ref.RefProj.lean ====
import proofs.«401353_j50216757624952_3_alg».proof.Proof.Gen.ReferenceIdeal.Read
import proofs.«401353_j50216757624952_3_alg».proof.Proof.Alg.ModelSpec

noncomputable section

namespace Cert.RefVal

open Cert.ReferenceIdeal Cert.ReferenceIdeal.Gen Cert.ReferenceIdeal.Read Idealize.ShloMosaic Idealize.ShloMosaic.ValueIdx Cert.Spec
open scoped BigOperators

abbrev X3 : Type := (⟨S4x2048x1024, .f32⟩ : BufTy).Contents (Elt Ideal)
abbrev W2 : Type := (⟨S1024x1024, .f32⟩ : BufTy).Contents (Elt Ideal)
abbrev B1 : Type := (⟨S1024, .f32⟩ : BufTy).Contents (Elt Ideal)

def hcol (h : Fin 16) (j : Fin 64) : Fin 1024 := ⟨h.val * 64 + j.val, by omega⟩

theorem rows3_rowAt (x : X3) (b : Fin 4) (s : Fin 2048) (k : Fin 1024) : rows3 x (rowAt b s) k = x (ix3 b s k) :=
  congrArg x (funext fun a => by
    have hb := b.isLt; have hs := s.isLt
    match a with
    | ⟨0, _⟩ => exact Fin.ext (by show (b.val * 2048 + s.val) / 2048 = b.val; omega)
    | ⟨1, _⟩ => exact Fin.ext (by show (b.val * 2048 + s.val) % 2048 = s.val; omega)
    | ⟨2, _⟩ => rfl)

theorem rowOf_rowAt (b : Fin 4) (s k : Fin 2048) : rowOf (rowAt b s) k = rowAt b k :=
  Fin.ext (by have hb := b.isLt; have hs := s.isLt; show (b.val * 2048 + s.val) / 2048 * 2048 + k.val = b.val * 2048 + k.val; omega)

theorem v9_eq_v3 (x : X3) (W : W2) (bi : B1) : val_main_v9 (F := Ideal) x W bi = val_main_v3 (F := Ideal) x W bi := rfl
theorem v15_eq_v3 (x : X3) (W : W2) (bi : B1) : val_main_v15 (F := Ideal) x W bi = val_main_v3 (F := Ideal) x W bi := rfl
theorem v11_eq_v5 (x : X3) (W : W2) (bi : B1) : val_main_v11 (F := Ideal) x W bi = val_main_v5 (F := Ideal) x W bi := rfl
theorem v17_eq_v5 (x : X3) (W : W2) (bi : B1) : val_main_v17 (F := Ideal) x W bi = val_main_v5 (F := Ideal) x W bi := rfl

theorem proj_at (x : X3) (W : W2) (bi : B1) (b : Fin 4) (s : Fin 2048) (e : Fin 1024) :
    val_main_v3 (F := Ideal) x W bi (ix3 b s e) = proj (rows3 x) (mat2 W) (vec1 bi) (rowAt b s) e := by
  rw [val_main_v3_apply, val_main_v0_apply, val_main_v2_apply, val_main_v1_apply]
  unfold proj
  show (∑ k : Fin 1024, _ * _) + _ = (∑ k : Fin 1024, _ * _) + _
  congr 1
  · refine Finset.sum_congr rfl fun k _ => ?_
    rw [rows3_rowAt]
    have el : lidx_main_v0 (ix3 b s e) k = ix3 b s k := funext fun a => by
      match a with
      | ⟨0, _⟩ => rfl
      | ⟨1, _⟩ => rfl
      | ⟨2, _⟩ => rfl
    have er : ridx_main_v0 (ix3 b s e) k = ix2 e k := funext fun a => by
      match a with
      | ⟨0, _⟩ => rfl
      | ⟨1, _⟩ => rfl
    rw [el, er]; rfl
  · exact congrArg bi (funext fun a => by
      match a with
      | ⟨0, _⟩ => rfl)

theorem head_at (x : X3) (W : W2) (bi : B1) (b : Fin 4) (h : Fin 16) (s : Fin 2048) (j : Fin 64) :
    val_main_v5 (F := Ideal) x W bi (ix4 b h s j) = proj (rows3 x) (mat2 W) (vec1 bi) (rowAt b s) (hcol h j) := by
  rw [val_main_v5_apply, val_main_v4_apply, ← proj_at]
  refine congrArg (val_main_v3 (F := Ideal) x W bi) (funext fun a => ?_)
  have hb := b.isLt; have hh := h.isLt; have hs := s.isLt; have hj := j.isLt
  match a with
  | ⟨0, _⟩ => exact Fin.ext (by show (((b.val * 2048 + s.val) * 16 + h.val) * 64 + j.val) / 2097152 = b.val; omega)
  | ⟨1, _⟩ => exact Fin.ext (by show (((b.val * 2048 + s.val) * 16 + h.val) * 64 + j.val) / 1024 % 2048 = s.val; omega)
  | ⟨2, _⟩ => exact Fin.ext (by show (((b.val * 2048 + s.val) * 16 + h.val) * 64 + j.val) % 1024 = h.val * 64 + j.val; omega)

end Cert.RefVal

end
-- ==== Proof.Ref.RefAttn.lean ====
import proofs.«401353_j50216757624952_3_alg».proof.Proof.Ref.RefProj

noncomputable section

namespace Cert.RefVal

open Cert.ReferenceIdeal Cert.ReferenceIdeal.Gen Cert.ReferenceIdeal.Read Idealize.ShloMosaic Idealize.ShloMosaic.ValueIdx Cert.Spec
open scoped BigOperators

abbrev e8 : EReal := Ideal.ofBits .f32 0x41000000#32

theorem ofBits_neg_inf : Ideal.ofBits .f32 0xFF800000#32 = ⊥ := by simp [Ideal.ofBits, Ideal.ieee]

variable (x0 x1 x2 : X3) (x3 : W2) (x4 : B1) (x5 : W2) (x6 : B1) (x7 : W2) (x8 : B1)

def sc (b : Fin 4) (h : Fin 16) (q k : Fin 2048) : EReal :=
  rscore e8 (fun j => proj (rows3 x0) (mat2 x3) (vec1 x4) (rowAt b q) (hcol h j))
    (fun j => proj (rows3 x1) (mat2 x5) (vec1 x6) (rowAt b k) (hcol h j))

theorem score_at (b : Fin 4) (h : Fin 16) (q k : Fin 2048) :
    val_main_v20 (F := Ideal) x0 x1 x3 x4 x5 x6 (ix4 b h q k) = sc x0 x1 x3 x4 x5 x6 b h q k := by
  rw [val_main_v20_apply, val_main_v18_apply, val_main_v19_apply, val_main_cst_apply]
  unfold sc rscore
  show Ideal.div (∑ j : Fin 64, _ * _) _ = Ideal.div (∑ j : Fin 64, _ * _) _
  congr 1
  refine Finset.sum_congr rfl fun j _ => ?_
  have el : lidx_main_v18 (ix4 b h q k) j = ix4 b h q j := funext fun a => by
    match a with
    | ⟨0, _⟩ => rfl
    | ⟨1, _⟩ => rfl
    | ⟨2, _⟩ => rfl
    | ⟨3, _⟩ => rfl
  have er : ridx_main_v18 (ix4 b h q k) j = ix4 b h k j := funext fun a => by
    match a with
    | ⟨0, _⟩ => rfl
    | ⟨1, _⟩ => rfl
    | ⟨2, _⟩ => rfl
    | ⟨3, _⟩ => rfl
  rw [el, er, v11_eq_v5, head_at, head_at]

theorem reduces_d3 : S4x16x2048x2048.Reduces [3] S4x16x2048 := by decide

theorem rowmax_at (b : Fin 4) (h : Fin 16) (q : Fin 2048) :
    val_main_v21 (F := Ideal) x0 x1 x3 x4 x5 x6 (ix3 b h q) = rowMax (fun k => sc x0 x1 x3 x4 x5 x6 b h q k) := by
  unfold val_main_v21
  rw [Host.reduce_eq_fold_single _ _ _ reducesTo_S4x16x2048x2048_S4x16x2048_d3 reduces_d3 h_S_ (ix3 b h q), val_main_cst_0_apply]
  unfold rowMax
  show (Finset.univ : Finset (Fin 2048)).fold max (Ideal.ofBits .f32 0xFF800000#32) _ = _
  rw [ofBits_neg_inf]
  congr 1
  refine funext fun (k : Fin 2048) => ?_
  refine Eq.trans ?_ (score_at x0 x1 x3 x4 x5 x6 b h q k)
  refine congrArg (val_main_v20 (F := Ideal) x0 x1 x3 x4 x5 x6) (funext fun a => ?_)
  match a with
  | ⟨0, _⟩ => exact Fin.ext rfl
  | ⟨1, _⟩ => exact Fin.ext rfl
  | ⟨2, _⟩ => exact Fin.ext rfl
  | ⟨3, _⟩ => exact Fin.ext rfl

def mx (b : Fin 4) (h : Fin 16) (q : Fin 2048) : EReal := max ⊥ (rowMax (fun k => sc x0 x1 x3 x4 x5 x6 b h q k))

theorem max_at (b : Fin 4) (h : Fin 16) (q : Fin 2048) :
    val_main_v23 (F := Ideal) x0 x1 x3 x4 x5 x6 (ix3 b h q) = mx x0 x1 x3 x4 x5 x6 b h q := by
  rw [val_main_v23_apply, val_main_v22_apply, val_main_cst_1_apply, rowmax_at]
  unfold mx
  show max (Ideal.ofBits .f32 0xFF800000#32) _ = _
  rw [ofBits_neg_inf]

theorem exp_at (b : Fin 4) (h : Fin 16) (q k : Fin 2048) :
    val_main_v27 (F := Ideal) x0 x1 x3 x4 x5 x6 (ix4 b h q k)
      = Ideal.exp (sc x0 x1 x3 x4 x5 x6 b h q k - mx x0 x1 x3 x4 x5 x6 b h q) := by
  rw [val_main_v27_apply, val_main_v26_apply, val_main_v25_apply, val_main_v24_apply, score_at]
  have ei : idx_main_v24 (idx_main_v25 (ix4 b h q k)) = ix3 b h q := funext fun a => by
    match a with
    | ⟨0, _⟩ => rfl
    | ⟨1, _⟩ => rfl
    | ⟨2, _⟩ => rfl
  rw [ei, max_at]
  rfl

theorem den_at (b : Fin 4) (h : Fin 16) (q : Fin 2048) :
    val_main_v28 (F := Ideal) x0 x1 x3 x4 x5 x6 (ix3 b h q)
      = 0 + ∑ k : Fin 2048, Ideal.exp (sc x0 x1 x3 x4 x5 x6 b h q k - mx x0 x1 x3 x4 x5 x6 b h q) := by
  rw [val_main_v28_apply, val_main_cst_2_apply]
  show Ideal.ofBits .f32 0x00000000#32 + _ = _
  rw [Ideal.ofBits_zero_f32]
  congr 1
  refine Finset.sum_congr rfl fun k _ => ?_
  have ei : idx_main_v28 (ix3 b h q) k = ix4 b h q k := funext fun a => by
    match a with
    | ⟨0, _⟩ => rfl
    | ⟨1, _⟩ => rfl
    | ⟨2, _⟩ => rfl
    | ⟨3, _⟩ => rfl
  rw [ei, exp_at]

theorem attn_at (b : Fin 4) (h : Fin 16) (q k : Fin 2048) :
    val_main_v31 (F := Ideal) x0 x1 x3 x4 x5 x6 (ix4 b h q k)
      = Ideal.div (Ideal.exp (sc x0 x1 x3 x4 x5 x6 b h q k - mx x0 x1 x3 x4 x5 x6 b h q))
          (0 + ∑ k' : Fin 2048, Ideal.exp (sc x0 x1 x3 x4 x5 x6 b h q k' - mx x0 x1 x3 x4 x5 x6 b h q)) := by
  rw [val_main_v31_apply, val_main_v30_apply, val_main_v29_apply, exp_at]
  have ei : idx_main_v29 (idx_main_v30 (ix4 b h q k)) = ix3 b h q := funext fun a => by
    match a with
    | ⟨0, _⟩ => rfl
    | ⟨1, _⟩ => rfl
    | ⟨2, _⟩ => rfl
  rw [ei, den_at]
  rfl

theorem ctx_at (b : Fin 4) (h : Fin 16) (q : Fin 2048) (j : Fin 64) :
    val_main_v32 (F := Ideal) x0 x1 x2 x3 x4 x5 x6 x7 x8 (ix4 b h q j)
      = softmaxAv (fun k => sc x0 x1 x3 x4 x5 x6 b h q k)
          (fun k => proj (rows3 x2) (mat2 x7) (vec1 x8) (rowAt b k) (hcol h j)) := by
  rw [val_main_v32_apply]
  unfold softmaxAv
  refine Finset.sum_congr rfl fun k _ => ?_
  have el : lidx_main_v32 (ix4 b h q j) k = ix4 b h q k := funext fun a => by
    match a with
    | ⟨0, _⟩ => rfl
    | ⟨1, _⟩ => rfl
    | ⟨2, _⟩ => rfl
    | ⟨3, _⟩ => rfl
  have er : ridx_main_v32 (ix4 b h q j) k = ix4 b h k j := funext fun a => by
    match a with
    | ⟨0, _⟩ => rfl
    | ⟨1, _⟩ => rfl
    | ⟨2, _⟩ => rfl
    | ⟨3, _⟩ => rfl
  rw [el, er, v17_eq_v5, head_at, attn_at]
  rfl

end Cert.RefVal

end
-- ==== Proof.Ref.RefVal.lean ====
import proofs.«401353_j50216757624952_3_alg».proof.Proof.Ref.RefAttn

noncomputable section

namespace Cert.RefVal

open Cert.ReferenceIdeal Cert.ReferenceIdeal.Gen Cert.ReferenceIdeal.Read Idealize.ShloMosaic Idealize.ShloMosaic.TcCoe Idealize.SL.Sem
  Idealize.ShloMosaic.ValueIdx Cert.Spec
open scoped BigOperators

theorem hcol_div (e : Fin 1024) (j : Fin 64) : hcol ⟨e.val / 64, by omega⟩ j = hc e j := rfl
theorem hcol_div_mod (e : Fin 1024) :
    hcol ⟨e.val / 64, by omega⟩ ⟨e.val % 64, Nat.mod_lt _ (by decide)⟩ = e :=
  Fin.ext (by show e.val / 64 * 64 + e.val % 64 = e.val; omega)
theorem hc_mod (e : Fin 1024) : hc e ⟨e.val % 64, Nat.mod_lt _ (by decide)⟩ = e :=
  Fin.ext (by show e.val / 64 * 64 + e.val % 64 = e.val; omega)

variable (x0 x1 x2 : X3) (x3 : W2) (x4 : B1) (x5 : W2) (x6 : B1) (x7 : W2) (x8 : B1) (x9 : W2)

theorem ctx3_at (b : Fin 4) (s : Fin 2048) (e : Fin 1024) :
    val_main_v34 (F := Ideal) x0 x1 x2 x3 x4 x5 x6 x7 x8 (ix3 b s e)
      = ctxWith (attnR e8) (proj (rows3 x0) (mat2 x3) (vec1 x4)) (proj (rows3 x1) (mat2 x5) (vec1 x6))
          (proj (rows3 x2) (mat2 x7) (vec1 x8)) (rowAt b s) e := by
  rw [val_main_v34_apply, val_main_v33_apply]
  have ei : idx_main_v33 (idx_main_v34 (ix3 b s e))
      = ix4 b (⟨e.val / 64, by omega⟩ : Fin 16) s (⟨e.val % 64, Nat.mod_lt _ (by decide)⟩ : Fin 64) := funext fun a => by
    have hb := b.isLt; have hs := s.isLt; have he := e.isLt
    match a with
    | ⟨0, _⟩ => exact Fin.ext (by show ((b.val * 2048 + s.val) * 1024 + e.val) / 2097152 = b.val; omega)
    | ⟨1, _⟩ => exact Fin.ext (by show ((b.val * 2048 + s.val) * 1024 + e.val) / 64 % 16 = e.val / 64; omega)
    | ⟨2, _⟩ => exact Fin.ext (by show ((b.val * 2048 + s.val) * 1024 + e.val) / 1024 % 2048 = s.val; omega)
    | ⟨3, _⟩ => exact Fin.ext (by show ((b.val * 2048 + s.val) * 1024 + e.val) % 64 = e.val % 64; omega)
  rw [ei, ctx_at]
  unfold ctxWith attnR sc
  simp only [rowOf_rowAt, hcol_div, hc_mod]

theorem val_apply (b : Fin 4) (s : Fin 2048) (d : Fin 1024) :
    val_main_v35 (F := Ideal) x0 x1 x2 x3 x4 x5 x6 x7 x8 x9 (ix3 b s d)
      = model (attnR e8) (rows3 x0) (rows3 x1) (rows3 x2) (mat2 x3) (vec1 x4) (mat2 x5) (vec1 x6) (mat2 x7) (vec1 x8)
          (mat2 x9) (rowAt b s) d := by
  rw [val_main_v35_apply]
  unfold model outp
  refine Finset.sum_congr rfl fun e _ => ?_
  have el : lidx_main_v35 (ix3 b s d) e = ix3 b s e := funext fun a => by
    match a with
    | ⟨0, _⟩ => rfl
    | ⟨1, _⟩ => rfl
    | ⟨2, _⟩ => rfl
  have er : ridx_main_v35 (ix3 b s d) e = ix2 d e := funext fun a => by
    match a with
    | ⟨0, _⟩ => rfl
    | ⟨1, _⟩ => rfl
  rw [el, er, ctx3_at]
  rfl

theorem ref_apply (m : (ℓ : Loc Cert.ReferenceIdeal.nD Cert.ReferenceIdeal.τ Cert.ReferenceIdeal.sig) → Buf (Elt Ideal) ℓ)
    (c : Dev Cert.ReferenceIdeal.nD) (b : Fin 4) (s : Fin 2048) (d : Fin 1024) :
    Cert.ReferenceIdeal.Value.res_main_v35 (F := Ideal) m c (ix3 b s d)
      = Cert.Spec.model (Cert.Spec.attnR (Ideal.ofBits .f32 0x41000000#32))
          (rows3 (m ((c.tc : Thread nD τ).loc main_arg0))) (rows3 (m ((c.tc : Thread nD τ).loc main_arg1)))
          (rows3 (m ((c.tc : Thread nD τ).loc main_arg2)))
          (mat2 (m ((c.tc : Thread nD τ).loc main_arg3))) (vec1 (m ((c.tc : Thread nD τ).loc main_arg4)))
          (mat2 (m ((c.tc : Thread nD τ).loc main_arg5))) (vec1 (m ((c.tc : Thread nD τ).loc main_arg6)))
          (mat2 (m ((c.tc : Thread nD τ).loc main_arg7))) (vec1 (m ((c.tc : Thread nD τ).loc main_arg8)))
          (mat2 (m ((c.tc : Thread nD τ).loc main_arg9)))
          (rowAt b s) d := by
  rw [val_main_v35_eq]
  exact val_apply _ _ _ _ _ _ _ _ _ _ b s d

end Cert.RefVal

end
-- ==== Proof.Alg.Flash.lean ====
import Mathlib.Algebra.BigOperators.Fin
import proofs.«401353_j50216757624952_3_alg».proof.Proof.Alg.RealClosed

noncomputable section

namespace Cert.Spec

open Idealize.ShloMosaic
open scoped BigOperators

theorem max_coe (a b : ℝ) : max (a : EReal) (b : EReal) = ((max a b : ℝ) : EReal) :=
  (EReal.coe_strictMono.monotone.map_max).symm

theorem fold_max_real_or_bot {ι : Type*} (t : Finset ι) (f : ι → ℝ) :
    t.fold max ⊥ (fun k => (f k : EReal)) = ⊥ ∨ ∃ r : ℝ, t.fold max ⊥ (fun k => (f k : EReal)) = r := by
  classical
  induction t using Finset.induction_on with
  | empty => left; simp
  | insert a t ha ih =>
    right
    rw [Finset.fold_insert ha]
    rcases ih with h | ⟨r, h⟩
    · exact ⟨f a, by rw [h, max_bot_right]⟩
    · exact ⟨max (f a) r, by rw [h, max_coe]⟩

theorem rowMax_real {n : ℕ} [NeZero n] (s : Fin n → ℝ) : ∃ M : ℝ, rowMax (fun k => (s k : EReal)) = M := by
  classical
  unfold rowMax
  have h0 : (0 : Fin n) ∈ (Finset.univ : Finset (Fin n)) := Finset.mem_univ _
  rw [← Finset.insert_erase h0, Finset.fold_insert (Finset.notMem_erase _ _)]
  rcases fold_max_real_or_bot (Finset.univ.erase (0 : Fin n)) s with h | ⟨r, h⟩
  · exact ⟨s 0, by rw [h, max_bot_right]⟩
  · exact ⟨max (s 0) r, by rw [h, max_coe]⟩

theorem exp_sub_coe (a b : ℝ) : Ideal.exp ((a : EReal) - (b : EReal)) = ((Real.exp (a - b) : ℝ) : EReal) := by
  rw [← EReal.coe_sub, Ideal.exp_coe]

theorem sum_exp_shift_mul {n : ℕ} (s v : Fin n → ℝ) (M : ℝ) :
    ∑ k, Real.exp (s k - M) * v k = Real.exp (-M) * ∑ k, Real.exp (s k) * v k := by
  rw [Finset.mul_sum]
  refine Finset.sum_congr rfl fun k _ => ?_
  rw [sub_eq_add_neg, Real.exp_add]; ring

theorem sum_exp_shift {n : ℕ} (s : Fin n → ℝ) (M : ℝ) :
    ∑ k, Real.exp (s k - M) = Real.exp (-M) * ∑ k, Real.exp (s k) := by
  rw [Finset.mul_sum]
  refine Finset.sum_congr rfl fun k _ => ?_
  rw [sub_eq_add_neg, Real.exp_add]; ring

theorem sum_exp_pos {n : ℕ} [NeZero n] (s : Fin n → ℝ) : 0 < ∑ k, Real.exp (s k) :=
  Finset.sum_pos (fun k _ => Real.exp_pos _) Finset.univ_nonempty

def soft {n : ℕ} (s v : Fin n → ℝ) : ℝ := (∑ k, Real.exp (s k) * v k) / (∑ k, Real.exp (s k))

theorem softmaxAv_coe {n : ℕ} [NeZero n] (s v : Fin n → ℝ) :
    softmaxAv (fun k => (s k : EReal)) (fun k => (v k : EReal)) = ((soft s v : ℝ) : EReal) := by
  obtain ⟨M, hM⟩ := rowMax_real s
  unfold softmaxAv
  rw [hM, max_bot_left]
  simp only [exp_sub_coe]
  rw [← coe_sum, zero_add]
  have hB := sum_exp_pos s
  have hE := Real.exp_pos (-M)
  have hZ : (∑ k, Real.exp (s k - M)) ≠ 0 := by
    rw [sum_exp_shift]; exact (mul_pos hE hB).ne'
  simp only [Ideal.div_coe hZ, ← EReal.coe_mul]
  rw [← coe_sum]
  congr 1
  have h1 : ∑ k, Real.exp (s k - M) * (1 / ∑ k', Real.exp (s k' - M)) * v k
      = (1 / ∑ k', Real.exp (s k' - M)) * ∑ k, Real.exp (s k - M) * v k := by
    rw [Finset.mul_sum]; exact Finset.sum_congr rfl fun k _ => by ring
  rw [h1, sum_exp_shift, sum_exp_shift_mul]
  unfold soft
  field_simp

theorem mNew_bot_coe {n : ℕ} (s : Fin n → ℝ) (M : ℝ) (hM : rowMax (fun k => (s k : EReal)) = M) :
    mNew ⊥ (fun k => (s k : EReal)) = (M : EReal) := by
  unfold mNew; rw [hM, max_bot_left]

theorem lNew_bot_coe {n : ℕ} (s : Fin n → ℝ) (M : ℝ) (hM : rowMax (fun k => (s k : EReal)) = M) :
    lNew ⊥ 0 (fun k => (s k : EReal)) = ((∑ k, Real.exp (s k - M) : ℝ) : EReal) := by
  unfold lNew alpha
  rw [mNew_bot_coe s M hM, EReal.bot_sub, Ideal.exp_bot, zero_mul, zero_add]
  simp only [exp_sub_coe]
  rw [← coe_sum]

theorem accNew_bot_coe {n : ℕ} (s v : Fin n → ℝ) (M : ℝ) (hM : rowMax (fun k => (s k : EReal)) = M) :
    accNew ⊥ 0 (fun k => (s k : EReal)) (fun k => (v k : EReal))
      = ((∑ k, Real.exp (s k - M) * v k : ℝ) : EReal) := by
  unfold accNew alpha
  rw [mNew_bot_coe s M hM, EReal.bot_sub, Ideal.exp_bot, zero_mul, zero_add]
  simp only [exp_sub_coe, ← EReal.coe_mul]
  rw [← coe_sum]

theorem mNew_coe {n : ℕ} (s : Fin n → ℝ) (m M : ℝ) (hM : rowMax (fun k => (s k : EReal)) = M) :
    mNew (m : EReal) (fun k => (s k : EReal)) = ((max m M : ℝ) : EReal) := by
  unfold mNew; rw [hM, max_coe]

theorem lNew_coe {n : ℕ} (s : Fin n → ℝ) (m l M : ℝ) (hM : rowMax (fun k => (s k : EReal)) = M) :
    lNew (m : EReal) (l : EReal) (fun k => (s k : EReal))
      = ((Real.exp (m - max m M) * l + ∑ k, Real.exp (s k - max m M) : ℝ) : EReal) := by
  unfold lNew alpha
  rw [mNew_coe s m M hM]
  simp only [exp_sub_coe]
  rw [← coe_sum, ← EReal.coe_mul, ← EReal.coe_add]

theorem accNew_coe {n : ℕ} (s v : Fin n → ℝ) (m a M : ℝ) (hM : rowMax (fun k => (s k : EReal)) = M) :
    accNew (m : EReal) (a : EReal) (fun k => (s k : EReal)) (fun k => (v k : EReal))
      = ((Real.exp (m - max m M) * a + ∑ k, Real.exp (s k - max m M) * v k : ℝ) : EReal) := by
  unfold accNew alpha
  rw [mNew_coe s m M hM]
  simp only [exp_sub_coe, ← EReal.coe_mul]
  rw [← coe_sum, ← EReal.coe_add]

theorem flash2_coe {n : ℕ} [NeZero n] (s0 v0 s1 v1 : Fin n → ℝ) :
    flash2 (fun k => (s0 k : EReal)) (fun k => (v0 k : EReal)) (fun k => (s1 k : EReal)) (fun k => (v1 k : EReal))
      = (((∑ k, Real.exp (s0 k) * v0 k + ∑ k, Real.exp (s1 k) * v1 k)
          / (∑ k, Real.exp (s0 k) + ∑ k, Real.exp (s1 k)) : ℝ) : EReal) := by
  obtain ⟨M0, hM0⟩ := rowMax_real s0
  obtain ⟨M1, hM1⟩ := rowMax_real s1
  unfold flash2
  rw [mNew_bot_coe s0 M0 hM0, lNew_bot_coe s0 M0 hM0, accNew_bot_coe s0 v0 M0 hM0,
    lNew_coe s1 M0 _ M1 hM1, accNew_coe s1 v1 M0 _ M1 hM1]
  have hB0 := sum_exp_pos s0
  have hB1 := sum_exp_pos s1
  have hE := Real.exp_pos (-(max M0 M1))
  have hshift : Real.exp (M0 - max M0 M1) * Real.exp (-M0) = Real.exp (-(max M0 M1)) := by
    rw [← Real.exp_add]; congr 1; ring
  have hden : Real.exp (M0 - max M0 M1) * (∑ k, Real.exp (s0 k - M0)) + ∑ k, Real.exp (s1 k - max M0 M1)
      = Real.exp (-(max M0 M1)) * (∑ k, Real.exp (s0 k) + ∑ k, Real.exp (s1 k)) := by
    rw [sum_exp_shift, sum_exp_shift, ← mul_assoc, hshift, mul_add]
  have hnum : Real.exp (M0 - max M0 M1) * (∑ k, Real.exp (s0 k - M0) * v0 k)
        + ∑ k, Real.exp (s1 k - max M0 M1) * v1 k
      = Real.exp (-(max M0 M1)) * (∑ k, Real.exp (s0 k) * v0 k + ∑ k, Real.exp (s1 k) * v1 k) := by
    rw [sum_exp_shift_mul, sum_exp_shift_mul, ← mul_assoc, hshift, mul_add]
  rw [hden, hnum]
  have hZ : Real.exp (-(max M0 M1)) * (∑ k, Real.exp (s0 k) + ∑ k, Real.exp (s1 k)) ≠ 0 :=
    (mul_pos hE (add_pos hB0 hB1)).ne'
  rw [Ideal.div_coe hZ, ← EReal.coe_mul]
  congr 1
  rw [mul_one_div, mul_div_mul_left _ _ hE.ne']

theorem sum_lo_hi (f : Fin 2048 → ℝ) : ∑ k, f k = ∑ k, lo f k + ∑ k, hi f k := by
  rw [Fin.sum_univ_add (a := 1024) (b := 1024) f]
  congr 1

theorem kscore_coe (q kr : Fin 64 → ℝ) :
    kscore ((1 / 8 : ℝ) : EReal) (fun j => (q j : EReal)) (fun j => (kr j : EReal))
      = (((∑ j, q j * kr j) / 8 : ℝ) : EReal) := by
  unfold kscore
  simp only [← EReal.coe_mul]
  rw [← coe_sum]
  congr 1
  rw [Finset.sum_div]
  exact Finset.sum_congr rfl fun j _ => by ring

theorem rscore_coe (q kr : Fin 64 → ℝ) :
    rscore ((8 : ℝ) : EReal) (fun j => (q j : EReal)) (fun j => (kr j : EReal))
      = (((∑ j, q j * kr j) / 8 : ℝ) : EReal) := by
  unfold rscore
  simp only [← EReal.coe_mul]
  rw [← coe_sum, Ideal.div_coe (by norm_num : (8 : ℝ) ≠ 0), ← EReal.coe_mul]
  congr 1
  rw [mul_one_div]

theorem attnK_eq_attnR (q : Fin 64 → ℝ) (kk : Fin 2048 → Fin 64 → ℝ) (v : Fin 2048 → ℝ) :
    attnK (Ideal.ofBits .bf16 0x3E00#16) (fun j => ((q j : ℝ) : EReal)) (fun k j => ((kk k j : ℝ) : EReal))
        (fun k => ((v k : ℝ) : EReal))
      = attnR (Ideal.ofBits .f32 0x41000000#32) (fun j => ((q j : ℝ) : EReal))
        (fun k j => ((kk k j : ℝ) : EReal)) (fun k => ((v k : ℝ) : EReal)) := by
  rw [ofBits_eighth, ofBits_eight]
  unfold attnK attnR
  have hlo : (fun k : Fin 1024 => kscore ((1 / 8 : ℝ) : EReal) (fun j => ((q j : ℝ) : EReal))
        (lo (fun k j => ((kk k j : ℝ) : EReal)) k))
      = fun k : Fin 1024 => ((lo (fun k => (∑ j, q j * kk k j) / 8) k : ℝ) : EReal) :=
    funext fun k => kscore_coe q (lo kk k)
  have hhi : (fun k : Fin 1024 => kscore ((1 / 8 : ℝ) : EReal) (fun j => ((q j : ℝ) : EReal))
        (hi (fun k j => ((kk k j : ℝ) : EReal)) k))
      = fun k : Fin 1024 => ((hi (fun k => (∑ j, q j * kk k j) / 8) k : ℝ) : EReal) :=
    funext fun k => kscore_coe q (hi kk k)
  have hr : (fun k : Fin 2048 => rscore ((8 : ℝ) : EReal) (fun j => ((q j : ℝ) : EReal))
        ((fun k j => ((kk k j : ℝ) : EReal)) k))
      = fun k : Fin 2048 => (((∑ j, q j * kk k j) / 8 : ℝ) : EReal) :=
    funext fun k => rscore_coe q (kk k)
  have hvlo : lo (fun k => ((v k : ℝ) : EReal)) = fun k => ((lo v k : ℝ) : EReal) := rfl
  have hvhi : hi (fun k => ((v k : ℝ) : EReal)) = fun k => ((hi v k : ℝ) : EReal) := rfl
  rw [hlo, hhi, hr, hvlo, hvhi, flash2_coe, softmaxAv_coe]
  congr 1
  unfold soft
  rw [sum_lo_hi (fun k => Real.exp ((∑ j, q j * kk k j) / 8) * v k),
    sum_lo_hi (fun k => Real.exp ((∑ j, q j * kk k j) / 8))]
  rfl

theorem attnK_eq_attnR_of_real (q : Fin 64 → EReal) (kk : Fin 2048 → Fin 64 → EReal) (v : Fin 2048 → EReal)
    (hq : ∀ j, ∃ r : ℝ, q j = r) (hk : ∀ k j, ∃ r : ℝ, kk k j = r) (hv : ∀ k, ∃ r : ℝ, v k = r) :
    attnK (Ideal.ofBits .bf16 0x3E00#16) q kk v = attnR (Ideal.ofBits .f32 0x41000000#32) q kk v := by
  choose q' hq' using hq
  choose kk' hk' using hk
  choose v' hv' using hv
  obtain rfl : q = fun j => ((q' j : ℝ) : EReal) := funext hq'
  obtain rfl : kk = fun k j => ((kk' k j : ℝ) : EReal) := funext fun k => funext fun j => hk' k j
  obtain rfl : v = fun k => ((v' k : ℝ) : EReal) := funext hv'
  exact attnK_eq_attnR q' kk' v'

end Cert.Spec

end
-- ==== Proof.Alg.ModelEq.lean ====
import proofs.«401353_j50216757624952_3_alg».proof.Proof.Alg.ModelSpec
import proofs.«401353_j50216757624952_3_alg».proof.Proof.Alg.Flash

noncomputable section

namespace Cert.Spec

open Idealize.ShloMosaic Idealize.ShloMosaic.ValueIdx
open scoped BigOperators

theorem proj_real (x : Mat 8192 1024) (W : Mat 1024 1024) (b : Fin 1024 → EReal)
    (hx : ∀ r k, ∃ t : ℝ, x r k = t) (hW : ∀ e k, ∃ t : ℝ, W e k = t) (hb : ∀ e, ∃ t : ℝ, b e = t)
    (r : Fin 8192) (e : Fin 1024) : ∃ t : ℝ, proj x W b r e = t :=
  real_add _ _ (real_sum_mul (fun k => x r k) (fun k => W e k) (hx r) (hW e)) (hb e)

theorem model_eq (xq xk xv : Mat 8192 1024) (Wq : Mat 1024 1024) (bq : Fin 1024 → EReal)
    (Wk : Mat 1024 1024) (bk : Fin 1024 → EReal) (Wv : Mat 1024 1024) (bv : Fin 1024 → EReal) (Wo : Mat 1024 1024)
    (hxq : ∀ r k, ∃ t : ℝ, xq r k = t) (hxk : ∀ r k, ∃ t : ℝ, xk r k = t) (hxv : ∀ r k, ∃ t : ℝ, xv r k = t)
    (hWq : ∀ e k, ∃ t : ℝ, Wq e k = t) (hbq : ∀ e, ∃ t : ℝ, bq e = t)
    (hWk : ∀ e k, ∃ t : ℝ, Wk e k = t) (hbk : ∀ e, ∃ t : ℝ, bk e = t)
    (hWv : ∀ e k, ∃ t : ℝ, Wv e k = t) (hbv : ∀ e, ∃ t : ℝ, bv e = t) :
    model (attnK (Ideal.ofBits .bf16 0x3E00#16)) xq xk xv Wq bq Wk bk Wv bv Wo
      = model (attnR (Ideal.ofBits .f32 0x41000000#32)) xq xk xv Wq bq Wk bk Wv bv Wo := by
  funext r d
  unfold model outp ctxWith
  refine Finset.sum_congr rfl fun e _ => ?_
  refine congrArg (· * Wo d e) ?_
  exact attnK_eq_attnR_of_real _ _ _
    (fun j => proj_real xq Wq bq hxq hWq hbq r (hc e j))
    (fun k j => proj_real xk Wk bk hxk hWk hbk (rowOf r k) (hc e j))
    (fun k => proj_real xv Wv bv hxv hWv hbv (rowOf r k) e)

theorem rows3_real (a : (⟨3, ![4, 2048, 1024]⟩ : Shape).Idx → EReal) (h : ∀ i, ∃ t : ℝ, a i = t) :
    ∀ r k, ∃ t : ℝ, rows3 a r k = t := fun _ _ => h _

theorem mat2_real (w : (⟨2, ![1024, 1024]⟩ : Shape).Idx → EReal) (h : ∀ i, ∃ t : ℝ, w i = t) :
    ∀ e k, ∃ t : ℝ, mat2 w e k = t := fun _ _ => h _

theorem vec1_real (b : (⟨1, ![1024]⟩ : Shape).Idx → EReal) (h : ∀ i, ∃ t : ℝ, b i = t) :
    ∀ e, ∃ t : ℝ, vec1 b e = t := fun _ => h _

end Cert.Spec

end
-- ==== Proof.lean ====
import proofs.«401353_j50216757624952_3_alg».proof.Proof.KB.Args
import proofs.«401353_j50216757624952_3_alg».proof.Proof.KI.Args
import proofs.«401353_j50216757624952_3_alg».proof.Proof.Val.Compose
import proofs.«401353_j50216757624952_3_alg».proof.Proof.Val.Finite
import proofs.«401353_j50216757624952_3_alg».proof.Proof.Ref.RefVal
import proofs.«401353_j50216757624952_3_alg».proof.Proof.Alg.ModelEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W7_main_arg0 m c),
      (h c _ (Cert.Kernel.Hand.mem_uc Cert.Kernel.main_arg1 (by decide))).trans (Cert.Kernel.Hand.W7_main_arg1 m c),
      (h c _ (Cert.Kernel.Hand.mem_uc Cert.Kernel.main_arg2 (by decide))).trans (Cert.Kernel.Hand.W7_main_arg2 m c),
      (h c _ (Cert.Kernel.Hand.mem_uc Cert.Kernel.main_arg3 (by decide))).trans (Cert.Kernel.Hand.W7_main_arg3 m c),
      (h c _ (Cert.Kernel.Hand.mem_uc Cert.Kernel.main_arg4 (by decide))).trans (Cert.Kernel.Hand.W7_main_arg4 m c),
      (h c _ (Cert.Kernel.Hand.mem_uc Cert.Kernel.main_arg5 (by decide))).trans (Cert.Kernel.Hand.W7_main_arg5 m c),
      (h c _ (Cert.Kernel.Hand.mem_uc Cert.Kernel.main_arg6 (by decide))).trans (Cert.Kernel.Hand.W7_main_arg6 m c),
      (h c _ (Cert.Kernel.Hand.mem_uc Cert.Kernel.main_arg7 (by decide))).trans (Cert.Kernel.Hand.W7_main_arg7 m c),
      (h c _ (Cert.Kernel.Hand.mem_uc Cert.Kernel.main_arg8 (by decide))).trans (Cert.Kernel.Hand.W7_main_arg8 m c),
      (h c _ (Cert.Kernel.Hand.mem_uc Cert.Kernel.main_arg9 (by decide))).trans (Cert.Kernel.Hand.W7_main_arg9 m c)⟩)
    (Cert.Kernel.Hand.run_all (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c),
      (h c _ (Cert.KernelIdeal.Hand.mem_uc Cert.KernelIdeal.main_arg9 (by decide))).trans (Cert.KernelIdeal.Hand.W7_main_arg9 m c)⟩)
    (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.W7 (F := Ideal) m c (Proc.devRef .tc Cert.KernelIdeal.main_v16), ?_, ?_⟩
  · exact (θ_run (Cert.KernelIdeal.defs (F := Ideal)) _ _).mono (fun r h c =>
      ⟨h c _ (Cert.KernelIdeal.Hand.mem_uc Cert.KernelIdeal.main_v16 (by decide)),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c),
      (h c _ (Cert.KernelIdeal.Hand.mem_uc Cert.KernelIdeal.main_arg9 (by decide))).trans (Cert.KernelIdeal.Hand.W7_main_arg9 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    funext i
    obtain ⟨b, s, d, rfl⟩ : ∃ (b : Fin 4) (s : Fin 2048) (d : Fin 1024), i = ix3 b s d := ⟨i 0, i 1, i 2, eq_ix3 i⟩
    obtain ⟨h0, h1, h2, h3, h4, h5, h6, h7, h8, h9⟩ := hagree c
    obtain ⟨r0, r1, r2, r3, r4, r5, r6, r7, r8, r9⟩ := Cert.FiniteVal.real_of_pre m hpre c
    rw [Cert.RefVal.ref_apply m' c b s d, h0, h1, h2, h3, h4, h5, h6, h7, h8, h9]
    refine Eq.trans ?_ (Cert.KVal.kernel_apply m c b s d).symm
    exact (congrFun (congrFun (Cert.Spec.model_eq _ _ _ _ _ _ _ _ _ _
      (Cert.Spec.rows3_real _ r0) (Cert.Spec.rows3_real _ r1) (Cert.Spec.rows3_real _ r2)
      (Cert.Spec.mat2_real _ r3) (Cert.Spec.vec1_real _ r4) (Cert.Spec.mat2_real _ r5) (Cert.Spec.vec1_real _ r6)
      (Cert.Spec.mat2_real _ r7) (Cert.Spec.vec1_real _ r8)) (Cert.Spec.rowAt b s)) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
